-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v38)) (v2 : (c : Dev Cert.KernelIdeal.nD) → Buf (Elt Ideal) ((c.tc : Thread Cert.KernelIdeal.nD Cert.KernelIdeal.τ).loc Cert.KernelIdeal.main_v36)) (v3 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_v36) = v2 c
          ∧ r.2.mem ((c.tc : Thread Cert.KernelIdeal.nD Cert.KernelIdeal.τ).loc Cert.KernelIdeal.main_v37) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v109) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x4x3 : Shape := ⟨3, ![50000, 4, 3]⟩
abbrev S800000 : Shape := ⟨1, ![800000]⟩
abbrev S144x64 : Shape := ⟨2, ![144, 64]⟩
abbrev S64 : Shape := ⟨1, ![64]⟩
abbrev S64x64 : Shape := ⟨2, ![64, 64]⟩
abbrev S192x64 : Shape := ⟨2, ![192, 64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x4x3 : S_.BroadcastsInDim S50000x4x3 (![] : Fin 0 → Fin S50000x4x3.rank)
  reducesTo_S50000x4x3_S_d0_1_2 : S50000x4x3.ReducesTo [0, 1, 2] S_
  bcast_S_S144x64 : S_.BroadcastsInDim S144x64 (![] : Fin 0 → Fin S144x64.rank)
  reducesTo_S144x64_S_d0_1 : S144x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S800000 : S_.BroadcastsInDim S800000 (![] : Fin 0 → Fin S800000.rank)
  reducesTo_S800000_S_d0 : S800000.ReducesTo [0] S_

variable [Facts]

def fn_part5 {F : FTy → Type} [FloatOps F] (main_arg2 : IVec S800000 32) (main_arg3 : IVec S800000 32) (main_v83 : IVec S_ 1) (main_v84 : IVec S800000 32) : IVec S_ 1 :=
  let main_v85 : IVec S800000 1 := cmpi .sge main_arg2 main_v84
  let main_c_33 : IVec S_ 32 := constantI S_ 32 50000#32
  let main_v86 : IVec S800000 32 := broadcastInDim S800000 ![] bcast_S_S800000 main_c_33
  let main_v87 : IVec S800000 1 := cmpi .slt main_arg2 main_v86
  let main_v88 : IVec S800000 1 := andi main_v85 main_v87
  let main_c_34 : IVec S_ 1 := constantI S_ 1 1#1
  let main_v89 : IVec S_ 1 := (fun x v => Host.reduce IntOp.andi x v reducesTo_S800000_S_d0 h_S_) main_v88 main_c_34
  let main_v90 : IVec S_ 1 := andi main_v83 main_v89
  let main_c_35 : IVec S_ 32 := constantI S_ 32 0#32
  let main_v91 : IVec S800000 32 := broadcastInDim S800000 ![] bcast_S_S800000 main_c_35
  let main_v92 : IVec S800000 1 := cmpi .sge main_arg3 main_v91
  let main_c_36 : IVec S_ 32 := constantI S_ 32 50000#32
  let main_v93 : IVec S800000 32 := broadcastInDim S800000 ![] bcast_S_S800000 main_c_36
  let main_v94 : IVec S800000 1 := cmpi .slt main_arg3 main_v93
  let main_v95 : IVec S800000 1 := andi main_v92 main_v94
  let main_c_37 : IVec S_ 1 := constantI S_ 1 1#1
  let main_v96 : IVec S_ 1 := (fun x v => Host.reduce IntOp.andi x v reducesTo_S800000_S_d0 h_S_) main_v95 main_c_37
  let main_v97 : IVec S_ 1 := andi main_v90 main_v96
  main_v97

def fn_part4 {F : FTy → Type} [FloatOps F] (main_arg2 : IVec S800000 32) (main_arg3 : IVec S800000 32) (main_arg16 : FVec F S64 .f32) (main_arg17 : FVec F S64x1 .f32) (main_arg18 : FVec F S1 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x1 .f32 := Host.absf main_arg17
  let main_cst_28 : FVec F S_ .f32 := constant S_ .f32 0x7F800000#32
  let main_v75 : FVec F S64x1 .f32 := broadcastInDim S64x1 ![] bcast_S_S64x1 main_cst_28
  let main_v76 : IVec S64x1 1 := cmpf .olt main_v74 main_v75
  let main_c_29 : IVec S_ 1 := constantI S_ 1 1#1
  let main_v77 : IVec S_ 1 := (fun x v => Host.reduce IntOp.andi x v reducesTo_S64x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_c_32 : IVec S_ 32 := constantI S_ 32 0#32
  let main_v84 : IVec S800000 32 := broadcastInDim S800000 ![] bcast_S_S800000 main_c_32
  fn_part5 (F := F) main_arg2 main_arg3 main_v83 main_v84

def fn_part3 {F : FTy → Type} [FloatOps F] (main_arg2 : IVec S800000 32) (main_arg3 : IVec S800000 32) (main_arg13 : FVec F S64 .f32) (main_arg14 : FVec F S64x1 .f32) (main_arg15 : FVec F S64x64 .f32) (main_arg16 : FVec F S64 .f32) (main_arg17 : FVec F S64x1 .f32) (main_arg18 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg14
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg2 main_arg3 main_arg16 main_arg17 main_arg18 main_v63 main_v67

def fn_part2 {F : FTy → Type} [FloatOps F] (main_arg2 : IVec S800000 32) (main_arg3 : IVec S800000 32) (main_arg9 : FVec F S64 .f32) (main_arg10 : FVec F S64x64 .f32) (main_arg11 : FVec F S64 .f32) (main_arg12 : FVec F S64x64 .f32) (main_arg13 : FVec F S64 .f32) (main_arg14 : FVec F S64x1 .f32) (main_arg15 : FVec F S64x64 .f32) (main_arg16 : FVec F S64 .f32) (main_arg17 : FVec F S64x1 .f32) (main_arg18 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg2 main_arg3 main_arg13 main_arg14 main_arg15 main_arg16 main_arg17 main_arg18 main_v48 main_v49 main_v50

def fn_part1 {F : FTy → Type} [FloatOps F] (main_arg2 : IVec S800000 32) (main_arg3 : IVec S800000 32) (main_arg6 : FVec F S64x64 .f32) (main_arg7 : FVec F S64 .f32) (main_arg8 : FVec F S192x64 .f32) (main_arg9 : FVec F S64 .f32) (main_arg10 : FVec F S64x64 .f32) (main_arg11 : FVec F S64 .f32) (main_arg12 : FVec F S64x64 .f32) (main_arg13 : FVec F S64 .f32) (main_arg14 : FVec F S64x1 .f32) (main_arg15 : FVec F S64x64 .f32) (main_arg16 : FVec F S64 .f32) (main_arg17 : FVec F S64x1 .f32) (main_arg18 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg8
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_arg18 main_v33

def fn {F : FTy → Type} [FloatOps F] (main_arg0 : FVec F S50000x64 .f32) (main_arg1 : FVec F S50000x4x3 .f32) (main_arg2 : IVec S800000 32) (main_arg3 : IVec S800000 32) (main_arg4 : FVec F S144x64 .f32) (main_arg5 : FVec F S64 .f32) (main_arg6 : FVec F S64x64 .f32) (main_arg7 : FVec F S64 .f32) (main_arg8 : FVec F S192x64 .f32) (main_arg9 : FVec F S64 .f32) (main_arg10 : FVec F S64x64 .f32) (main_arg11 : FVec F S64 .f32) (main_arg12 : FVec F S64x64 .f32) (main_arg13 : FVec F S64 .f32) (main_arg14 : FVec F S64x1 .f32) (main_arg15 : FVec F S64x64 .f32) (main_arg16 : FVec F S64 .f32) (main_arg17 : FVec F S64x1 .f32) (main_arg18 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x4x3 .f32 := Host.absf main_arg1
  let main_cst_0 : FVec F S_ .f32 := constant S_ .f32 0x7F800000#32
  let main_v5 : FVec F S50000x4x3 .f32 := broadcastInDim S50000x4x3 ![] bcast_S_S50000x4x3 main_cst_0
  let main_v6 : IVec S50000x4x3 1 := cmpf .olt main_v4 main_v5
  let main_c_1 : IVec S_ 1 := constantI S_ 1 1#1
  let main_v7 : IVec S_ 1 := (fun x v => Host.reduce IntOp.andi x v reducesTo_S50000x4x3_S_d0_1_2 h_S_) main_v6 main_c_1
  let main_v8 : IVec S_ 1 := andi main_v3 main_v7
  let main_v9 : FVec F S144x64 .f32 := Host.absf main_arg4
  let main_cst_2 : FVec F S_ .f32 := constant S_ .f32 0x7F800000#32
  let main_v10 : FVec F S144x64 .f32 := broadcastInDim S144x64 ![] bcast_S_S144x64 main_cst_2
  let main_v11 : IVec S144x64 1 := cmpf .olt main_v9 main_v10
  let main_c_3 : IVec S_ 1 := constantI S_ 1 1#1
  let main_v12 : IVec S_ 1 := (fun x v => Host.reduce IntOp.andi x v reducesTo_S144x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg3 main_arg6 main_arg7 main_arg8 main_arg9 main_arg10 main_arg11 main_arg12 main_arg13 main_arg14 main_arg15 main_arg16 main_arg17 main_arg18 main_v13 main_v16
-- ==== Kernel.lean ====
abbrev S50000x64 : Shape := ⟨2, ![50000, 64]⟩
abbrev S50000x4x3 : Shape := ⟨3, ![50000, 4, 3]⟩
abbrev S800000 : Shape := ⟨1, ![800000]⟩
abbrev S144x64 : Shape := ⟨2, ![144, 64]⟩
abbrev S64 : Shape := ⟨1, ![64]⟩
abbrev S64x64 : Shape := ⟨2, ![64, 64]⟩
abbrev S192x64 : Shape := ⟨2, ![192, 64]⟩
abbrev S64x1 : Shape := ⟨2, ![64, 1]⟩
abbrev S1 : Shape := ⟨1, ![1]⟩
abbrev S50000x12 : Shape := ⟨2, ![50000, 12]⟩
abbrev S50000x76 : Shape := ⟨2, ![50000, 76]⟩
abbrev S_ : Shape := ⟨0, ![]⟩
abbrev S800000x1 : Shape := ⟨2, ![800000, 1]⟩
abbrev S1x1 : Shape := ⟨2, ![1, 1]⟩
abbrev S800000x76 : Shape := ⟨2, ![800000, 76]⟩
abbrev S16x64 : Shape := ⟨2, ![16, 64]⟩
abbrev S800000x77 : Shape := ⟨2, ![800000, 77]⟩
abbrev S800000x65 : Shape := ⟨2, ![800000, 65]⟩
abbrev S5000x76 : Shape := ⟨2, ![5000, 76]⟩
abbrev S5000x77 : Shape := ⟨2, ![5000, 77]⟩
abbrev S5000x65 : Shape := ⟨2, ![5000, 65]⟩
abbrev S5000x64 : Shape := ⟨2, ![5000, 64]⟩
abbrev S5000x12 : Shape := ⟨2, ![5000, 12]⟩
abbrev S5000x3 : Shape := ⟨2, ![5000, 3]⟩
abbrev S5000 : Shape := ⟨1, ![5000]⟩
abbrev S5000x1 : Shape := ⟨2, ![5000, 1]⟩
abbrev S5000x16 : Shape := ⟨2, ![5000, 16]⟩
abbrev S1x64 : Shape := ⟨2, ![1, 64]⟩
abbrev S50000x77 : Shape := ⟨2, ![50000, 77]⟩
abbrev S50000x1 : Shape := ⟨2, ![50000, 1]⟩
abbrev S50000x65 : Shape := ⟨2, ![50000, 65]⟩
abbrev S50000x192 : Shape := ⟨2, ![50000, 192]⟩
abbrev S50000x256 : Shape := ⟨2, ![50000, 256]⟩
abbrev S256x64 : Shape := ⟨2, ![256, 64]⟩
abbrev S50000x24 : Shape := ⟨2, ![50000, 24]⟩
abbrev S50000x82 : Shape := ⟨2, ![50000, 82]⟩
abbrev S5000x256 : Shape := ⟨2, ![5000, 256]⟩
abbrev S5000x24 : Shape := ⟨2, ![5000, 24]⟩
abbrev S5000x82 : Shape := ⟨2, ![5000, 82]⟩
abbrev S50000x3 : Shape := ⟨2, ![50000, 3]⟩

abbrev nBuf : Space → Nat
  | .hbm => 109
  | .vmem => 31
  | .smem => 0
  | _ => 0

abbrev bufTy : (tb : Table) → Fin (tcTables nBuf tb) → BufTy
  | .hbm, ⟨0, _⟩ => ⟨S50000x64, .f32⟩
  | .hbm, ⟨1, _⟩ => ⟨S50000x4x3, .f32⟩
  | .hbm, ⟨2, _⟩ => ⟨S800000, .i32⟩
  | .hbm, ⟨3, _⟩ => ⟨S800000, .i32⟩
  | .hbm, ⟨4, _⟩ => ⟨S144x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S192x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x1, .f32⟩
  | .hbm, ⟨15, _⟩ => ⟨S64x64, .f32⟩
  | .hbm, ⟨16, _⟩ => ⟨S64, .f32⟩
  | .hbm, ⟨17, _⟩ => ⟨S64x1, .f32⟩
  | .hbm, ⟨18, _⟩ => ⟨S1, .f32⟩
  | .hbm, ⟨19, _⟩ => ⟨S50000x12, .f32⟩
  | .hbm, ⟨20, _⟩ => ⟨S50000x76, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S1, .i32⟩
  | .hbm, ⟨30, _⟩ => ⟨S_, .i32⟩
  | .hbm, ⟨31, _⟩ => ⟨S800000x1, .i32⟩
  | .hbm, ⟨32, _⟩ => ⟨S800000x1, .i1⟩
  | .hbm, ⟨33, _⟩ => ⟨S1x1, .i32⟩
  | .hbm, ⟨34, _⟩ => ⟨S800000x1, .i32⟩
  | .hbm, ⟨35, _⟩ => ⟨S800000x1, .i1⟩
  | .hbm, ⟨36, _⟩ => ⟨S800000x1, .i1⟩
  | .hbm, ⟨37, _⟩ => ⟨S_, .i1⟩
  | .hbm, ⟨38, _⟩ => ⟨S800000, .i1⟩
  | .hbm, ⟨39, _⟩ => ⟨S800000x76, .f32⟩
  | .hbm, ⟨40, _⟩ => ⟨S800000x76, .i1⟩
  | .hbm, ⟨41, _⟩ => ⟨S_, .f32⟩
  | .hbm, ⟨42, _⟩ => ⟨S800000x76, .f32⟩
  | .hbm, ⟨43, _⟩ => ⟨S800000x76, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S1, .i32⟩
  | .hbm, ⟨53, _⟩ => ⟨S_, .i32⟩
  | .hbm, ⟨54, _⟩ => ⟨S800000x1, .i32⟩
  | .hbm, ⟨55, _⟩ => ⟨S800000x1, .i1⟩
  | .hbm, ⟨56, _⟩ => ⟨S1x1, .i32⟩
  | .hbm, ⟨57, _⟩ => ⟨S800000x1, .i32⟩
  | .hbm, ⟨58, _⟩ => ⟨S800000x1, .i1⟩
  | .hbm, ⟨59, _⟩ => ⟨S800000x1, .i1⟩
  | .hbm, ⟨60, _⟩ => ⟨S_, .i1⟩
  | .hbm, ⟨61, _⟩ => ⟨S800000, .i1⟩
  | .hbm, ⟨62, _⟩ => ⟨S800000x76, .f32⟩
  | .hbm, ⟨63, _⟩ => ⟨S800000x76, .i1⟩
  | .hbm, ⟨64, _⟩ => ⟨S_, .f32⟩
  | .hbm, ⟨65, _⟩ => ⟨S800000x76, .f32⟩
  | .hbm, ⟨66, _⟩ => ⟨S800000x76, .f32⟩
  | .hbm, ⟨67, _⟩ => ⟨S64x64, .f32⟩
  | .hbm, ⟨68, _⟩ => ⟨S64x64, .f32⟩
  | .hbm, ⟨69, _⟩ => ⟨S16x64, .f32⟩
  | .hbm, ⟨70, _⟩ => ⟨S800000x77, .f32⟩
  | .hbm, ⟨71, _⟩ => ⟨S800000x65, .f32⟩
  | .hbm, ⟨72, _⟩ => ⟨S_, .f32⟩
  | .hbm, ⟨73, _⟩ => ⟨S50000x77, .f32⟩
  | .hbm, ⟨74, _⟩ => ⟨S800000x1, .i32⟩
  | .hbm, ⟨75, _⟩ => ⟨S50000x77, .f32⟩
  | .hbm, ⟨76, _⟩ => ⟨S50000x12, .f32⟩
  | .hbm, ⟨77, _⟩ => ⟨S50000x64, .f32⟩
  | .hbm, ⟨78, _⟩ => ⟨S50000x1, .f32⟩
  | .hbm, ⟨79, _⟩ => ⟨S_, .f32⟩
  | .hbm, ⟨80, _⟩ => ⟨S50000x1, .f32⟩
  | .hbm, ⟨81, _⟩ => ⟨S50000x1, .f32⟩
  | .hbm, ⟨82, _⟩ => ⟨S50000x12, .f32⟩
  | .hbm, ⟨83, _⟩ => ⟨S50000x12, .f32⟩
  | .hbm, ⟨84, _⟩ => ⟨S_, .f32⟩
  | .hbm, ⟨85, _⟩ => ⟨S50000x65, .f32⟩
  | .hbm, ⟨86, _⟩ => ⟨S800000x1, .i32⟩
  | .hbm, ⟨87, _⟩ => ⟨S50000x65, .f32⟩
  | .hbm, ⟨88, _⟩ => ⟨S50000x64, .f32⟩
  | .hbm, ⟨89, _⟩ => ⟨S50000x1, .f32⟩
  | .hbm, ⟨90, _⟩ => ⟨S_, .f32⟩
  | .hbm, ⟨91, _⟩ => ⟨S50000x1, .f32⟩
  | .hbm, ⟨92, _⟩ => ⟨S50000x1, .f32⟩
  | .hbm, ⟨93, _⟩ => ⟨S50000x64, .f32⟩
  | .hbm, ⟨94, _⟩ => ⟨S50000x64, .f32⟩
  | .hbm, ⟨95, _⟩ => ⟨S50000x192, .f32⟩
  | .hbm, ⟨96, _⟩ => ⟨S_, .f32⟩
  | .hbm, ⟨97, _⟩ => ⟨S50000x64, .f32⟩
  | .hbm, ⟨98, _⟩ => ⟨S50000x256, .f32⟩
  | .hbm, ⟨99, _⟩ => ⟨S_, .f32⟩
  | .hbm, ⟨100, _⟩ => ⟨S64x64, .f32⟩
  | .hbm, ⟨101, _⟩ => ⟨S256x64, .f32⟩
  | .hbm, ⟨102, _⟩ => ⟨S50000x24, .f32⟩
  | .hbm, ⟨103, _⟩ => ⟨S50000x82, .f32⟩
  | .hbm, ⟨104, _⟩ => ⟨S50000x64, .f32⟩
  | .hbm, ⟨105, _⟩ => ⟨S50000x12, .f32⟩
  | .hbm, ⟨106, _⟩ => ⟨S50000x3, .f32⟩
  | .hbm, ⟨107, _⟩ => ⟨S50000x3, .f32⟩
  | .hbm, ⟨108, _⟩ => ⟨S50000x4x3, .f32⟩
  | .local _ .vmem, ⟨0, _⟩ => ⟨S5000x76, .f32⟩
  | .local _ .vmem, ⟨1, _⟩ => ⟨S5000x76, .f32⟩
  | .local _ .vmem, ⟨2, _⟩ => ⟨S5000x76, .f32⟩
  | .local _ .vmem, ⟨3, _⟩ => ⟨S5000x76, .f32⟩
  | .local _ .vmem, ⟨4, _⟩ => ⟨S64x64, .f32⟩
  | .local _ .vmem, ⟨5, _⟩ => ⟨S64x64, .f32⟩
  | .local _ .vmem, ⟨6, _⟩ => ⟨S16x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S64x1, .f32⟩
  | .local _ .vmem, ⟨13, _⟩ => ⟨S5000x77, .f32⟩
  | .local _ .vmem, ⟨14, _⟩ => ⟨S5000x77, .f32⟩
  | .local _ .vmem, ⟨15, _⟩ => ⟨S5000x65, .f32⟩
  | .local _ .vmem, ⟨16, _⟩ => ⟨S5000x65, .f32⟩
  | .local _ .vmem, ⟨17, _⟩ => ⟨S5000x256, .f32⟩
  | .local _ .vmem, ⟨18, _⟩ => ⟨S5000x256, .f32⟩
  | .local _ .vmem, ⟨19, _⟩ => ⟨S5000x24, .f32⟩
  | .local _ .vmem, ⟨20, _⟩ => ⟨S5000x24, .f32⟩
  | .local _ .vmem, ⟨21, _⟩ => ⟨S256x64, .f32⟩
  | .local _ .vmem, ⟨22, _⟩ => ⟨S64, .f32⟩
  | .local _ .vmem, ⟨23, _⟩ => ⟨S64x64, .f32⟩
  | .local _ .vmem, ⟨24, _⟩ => ⟨S64, .f32⟩
  | .local _ .vmem, ⟨25, _⟩ => ⟨S64x64, .f32⟩
  | .local _ .vmem, ⟨26, _⟩ => ⟨S64, .f32⟩
  | .local _ .vmem, ⟨27, _⟩ => ⟨S64x1, .f32⟩
  | .local _ .vmem, ⟨28, _⟩ => ⟨S1, .f32⟩
  | .local _ .vmem, ⟨29, _⟩ => ⟨S5000x82, .f32⟩
  | .local _ .vmem, ⟨30, _⟩ => ⟨S5000x82, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v2 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v3 : Ref sig .tc := ⟨.hbm, 66, rfl⟩
abbrev main_v4 : Ref sig .tc := ⟨.hbm, 67, rfl⟩
abbrev main_v5 : Ref sig .tc := ⟨.hbm, 68, rfl⟩
abbrev main_v6 : Ref sig .tc := ⟨.hbm, 69, rfl⟩
abbrev main_v7_0 : Ref sig .tc := ⟨.hbm, 70, rfl⟩
abbrev main_v7_1 : Ref sig .tc := ⟨.hbm, 71, rfl⟩
abbrev main_cst : Ref sig .tc := ⟨.hbm, 72, rfl⟩
abbrev main_v8 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_cst_0 : Ref sig .tc := ⟨.hbm, 79, rfl⟩
abbrev main_v14 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_cst_1 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_cst_2 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_cst_3 : Ref sig .tc := ⟨.hbm, 96, rfl⟩
abbrev main_v28 : Ref sig .tc := ⟨.hbm, 97, rfl⟩
abbrev main_v29 : Ref sig .tc := ⟨.hbm, 98, rfl⟩
abbrev main_cst_4 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg10_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem10_1 : DmaSem sig := 30

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x76 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x76 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x77 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5000x65 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x24 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x82 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  shapeCasts_S50000x4x3_S50000x12 : S50000x4x3.ShapeCasts S50000x12
  concatenates_S50000x64_S50000x12_S50000x76_d1 : Shape.Concatenates [S50000x64, S50000x12] S50000x76 1
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x76_0 : S800000.BroadcastsInDim S800000x76 (![0] : Fin 1 → Fin S800000x76.rank)
  bcast_S_S800000x76 : S_.BroadcastsInDim S800000x76 (![] : Fin 0 → Fin S800000x76.rank)
  slices_S144x64_S64x64_0_0 : S144x64.Slices ![0, 0] S64x64
  slices_S144x64_S64x64_64_0 : S144x64.Slices ![64, 0] S64x64
  slices_S144x64_S16x64_128_0 : S144x64.Slices ![128, 0] S16x64
  inb_S5000x76_S5000x64_0_0 : ∀ a, (![0, 0] : Fin 2 → Nat) a + S5000x64.size a ≤ S5000x76.size a
  h_S5000x64 : 0 < S5000x64.numel
  shapeCasts_S5000x64_S5000x64 : S5000x64.ShapeCasts S5000x64
  inb_S5000x76_S5000x12_0_64 : ∀ a, (![0, 64] : Fin 2 → Nat) a + S5000x12.size a ≤ S5000x76.size a
  h_S5000x12 : 0 < S5000x12.numel
  shapeCasts_S5000x12_S5000x12 : S5000x12.ShapeCasts S5000x12
  slices_S5000x12_o0_0_S5000x3 : S5000x12.Slices ![0, 0] S5000x3
  slices_S5000x12_o0_3_S5000x3 : S5000x12.Slices ![0, 3] S5000x3
  slices_S5000x12_o0_6_S5000x3 : S5000x12.Slices ![0, 6] S5000x3
  slices_S5000x12_o0_9_S5000x3 : S5000x12.Slices ![0, 9] S5000x3
  reduces_S5000x3_S5000 : S5000x3.Reduces [1] S5000
  shapeCasts_S5000_S5000x1 : S5000.ShapeCasts S5000x1
  concatenates_S5000x1_S5000x1_S5000x1_S5000x1_S5000x1_S5000x1_S5000x1_S5000x1_S5000x1_S5000x1_S5000x1_S5000x1_S5000x1_S5000x1_S5000x1_S5000x1_S5000x16_d1 : Shape.Concatenates [S5000x1, S5000x1, S5000x1, S5000x1, S5000x1, S5000x1, S5000x1, S5000x1, S5000x1, S5000x1, S5000x1, S5000x1, S5000x1, S5000x1, S5000x1, S5000x1] S5000x16 1
  reduces_S5000x16_S5000 : S5000x16.Reduces [1] S5000
  broadcasts_S5000x1_S5000x16 : S5000x1.Broadcasts S5000x16
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  broadcasts_S5000x1_S5000x12 : S5000x1.Broadcasts S5000x12
  concatenates_S5000x12_S5000x64_S5000x1_S5000x77_d1 : Shape.Concatenates [S5000x12, S5000x64, S5000x1] S5000x77 1
  inb_S5000x77_S5000x77_0_0 : ∀ a, (![0, 0] : Fin 2 → Nat) a + S5000x77.size a ≤ S5000x77.size a
  h_S5000x77 : 0 < S5000x77.numel
  concatenates_S5000x64_S5000x1_S5000x65_d1 : Shape.Concatenates [S5000x64, S5000x1] S5000x65 1
  inb_S5000x65_S5000x65_0_0 : ∀ a, (![0, 0] : Fin 2 → Nat) a + S5000x65.size a ≤ S5000x65.size a
  h_S5000x65 : 0 < S5000x65.numel
  bcast_S_S50000x77 : S_.BroadcastsInDim S50000x77 (![] : Fin 0 → Fin S50000x77.rank)
  slices_S50000x77_S50000x12_0_0 : S50000x77.Slices ![0, 0] S50000x12
  slices_S50000x77_S50000x64_0_12 : S50000x77.Slices ![0, 12] S50000x64
  slices_S50000x77_S50000x1_0_76 : S50000x77.Slices ![0, 76] S50000x1
  bcast_S_S50000x1 : S_.BroadcastsInDim S50000x1 (![] : Fin 0 → Fin S50000x1.rank)
  bcast_S50000x1_S50000x12_0_1 : S50000x1.BroadcastsInDim S50000x12 (![0, 1] : Fin 2 → Fin S50000x12.rank)
  bcast_S_S50000x65 : S_.BroadcastsInDim S50000x65 (![] : Fin 0 → Fin S50000x65.rank)
  slices_S50000x65_S50000x64_0_0 : S50000x65.Slices ![0, 0] S50000x64
  slices_S50000x65_S50000x1_0_64 : S50000x65.Slices ![0, 64] S50000x1
  bcast_S50000x1_S50000x64_0_1 : S50000x1.BroadcastsInDim S50000x64 (![0, 1] : Fin 2 → Fin S50000x64.rank)
  concatenates_S50000x64_S50000x64_S50000x64_S50000x192_d1 : Shape.Concatenates [S50000x64, S50000x64, S50000x64] S50000x192 1
  bcast_S_S50000x64 : S_.BroadcastsInDim S50000x64 (![] : Fin 0 → Fin S50000x64.rank)
  concatenates_S50000x192_S50000x64_S50000x256_d1 : Shape.Concatenates [S50000x192, S50000x64] S50000x256 1
  bcast_S_S64x64 : S_.BroadcastsInDim S64x64 (![] : Fin 0 → Fin S64x64.rank)
  concatenates_S192x64_S64x64_S256x64_d0 : Shape.Concatenates [S192x64, S64x64] S256x64 0
  concatenates_S50000x12_S50000x12_S50000x24_d1 : Shape.Concatenates [S50000x12, S50000x12] S50000x24 1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S5000x256_S5000x64_0_64 : ∀ a, (![0, 64] : Fin 2 → Nat) a + S5000x64.size a ≤ S5000x256.size a
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S5000x24_S5000x12_0_0 : ∀ a, (![0, 0] : Fin 2 → Nat) a + S5000x12.size a ≤ S5000x24.size a
  inb_S5000x24_S5000x12_0_12 : ∀ a, (![0, 12] : Fin 2 → Nat) a + S5000x12.size a ≤ S5000x24.size a
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  broadcasts_S5000x1_S5000x3 : S5000x1.Broadcasts S5000x3
  concatenates_S5000x64_S5000x12_S5000x3_S5000x3_S5000x82_d1 : Shape.Concatenates [S5000x64, S5000x12, S5000x3, S5000x3] S5000x82 1
  inb_S5000x82_S5000x82_0_0 : ∀ a, (![0, 0] : Fin 2 → Nat) a + S5000x82.size a ≤ S5000x82.size a
  h_S5000x82 : 0 < S5000x82.numel
  slices_S50000x82_S50000x64_0_0 : S50000x82.Slices ![0, 0] S50000x64
  slices_S50000x82_S50000x12_0_64 : S50000x82.Slices ![0, 64] S50000x12
  slices_S50000x82_S50000x3_0_76 : S50000x82.Slices ![0, 76] S50000x3
  slices_S50000x82_S50000x3_0_79 : S50000x82.Slices ![0, 79] S50000x3
  shapeCasts_S50000x12_S50000x4x3 : S50000x12.ShapeCasts S50000x4x3
  gather_S50000x76_S800000x1_S800000x76_1_0_n_n_0_1_176_wf : GatherDims.WF S50000x76 S800000x1 S800000x76 [1] [0] [] [0] [] 1 ![1, 76]
  dot_S5000x64_S64x64_S5000x64_1_0_0_1_n_n_wf : DotDims.WF S5000x64 S64x64 S5000x64 [1] [0] [0] [1] [] []
  dot_S5000x16_S16x64_S5000x64_1_0_0_1_n_n_wf : DotDims.WF S5000x16 S16x64 S5000x64 [1] [0] [0] [1] [] []
  dot_S5000x64_S64x1_S5000x1_1_0_0_1_n_n_wf : DotDims.WF S5000x64 S64x1 S5000x1 [1] [0] [0] [1] [] []
  scatter_S50000x77_S800000x1_S800000x77_1_0_0_1_wf : ScatterDims.WF S50000x77 S800000x1 S800000x77 [1] [0] [0] 1
  scatter_S50000x65_S800000x1_S800000x65_1_0_0_1_wf : ScatterDims.WF S50000x65 S800000x1 S800000x65 [1] [0] [0] 1
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x76.size a ≤ S800000x76.size a
  hwx0_0 : ∀ i : grid0.Coords, EltTy.bits .f32 = 32 ∨ (Rect.block (s := S800000x76) S5000x76.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x76.size a ≤ S800000x76.size a
  hwx0_1 : ∀ i : grid0.Coords, EltTy.bits .f32 = 32 ∨ (Rect.block (s := S800000x76) S5000x76.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x64.size a ≤ S16x64.size a
  hwx0_4 : ∀ i : grid0.Coords, EltTy.bits .f32 = 32 ∨ (Rect.block (s := S16x64) S16x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x1.size a ≤ S64x1.size a
  hwx0_10 : ∀ i : grid0.Coords, EltTy.bits .f32 = 32 ∨ (Rect.block (s := S64x1) S64x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x77.size a ≤ S800000x77.size a
  hwx0_11 : ∀ i : grid0.Coords, EltTy.bits .f32 = 32 ∨ (Rect.block (s := S800000x77) S5000x77.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5000x65.size a ≤ S800000x65.size a
  hwx0_12 : ∀ i : grid0.Coords, EltTy.bits .f32 = 32 ∨ (Rect.block (s := S800000x65) S5000x65.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x24.size a ≤ S50000x24.size a
  hwx1_1 : ∀ i : grid1.Coords, EltTy.bits .f32 = 32 ∨ (Rect.block (s := S50000x24) S5000x24.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x1.size a ≤ S64x1.size a
  hwx1_8 : ∀ i : grid1.Coords, EltTy.bits .f32 = 32 ∨ (Rect.block (s := S64x1) S64x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1.size a ≤ S1.size a
  hwx1_9 : ∀ i : grid1.Coords, EltTy.bits .f32 = 32 ∨ (Rect.block (s := S1) S1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x82.size a ≤ S50000x82.size a
  hwx1_10 : ∀ i : grid1.Coords, EltTy.bits .f32 = 32 ∨ (Rect.block (s := S50000x82) S5000x82.size (cc1_transform_10 i) (hinb1_10 i)).WholeWords (EltTy.packing .f32)

variable [Facts₀]

def gather_S50000x76_S800000x1_S800000x76_1_0_n_n_0_1_176 : GatherDims S50000x76 S800000x1 S800000x76 where
  offsetDims := [1]
  collapsedSliceDims := [0]
  operandBatchingDims := []
  startIndicesBatchingDims := []
  startIndexMap := [0]
  indexVectorDim := 1
  sliceSizes := ![1, 76]
  wf := gather_S50000x76_S800000x1_S800000x76_1_0_n_n_0_1_176_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def scatter_S50000x77_S800000x1_S800000x77_1_0_0_1 : ScatterDims S50000x77 S800000x1 S800000x77 where
  updateWindowDims := [1]
  insertedWindowDims := [0]
  scatterDimsToOperandDims := [0]
  indexVectorDim := 1
  wf := scatter_S50000x77_S800000x1_S800000x77_1_0_0_1_wf
def scatter_S50000x65_S800000x1_S800000x65_1_0_0_1 : ScatterDims S50000x65 S800000x1 S800000x65 where
  updateWindowDims := [1]
  insertedWindowDims := [0]
  scatterDimsToOperandDims := [0]
  indexVectorDim := 1
  wf := scatter_S50000x65_S800000x1_S800000x65_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_v2) S5000x76.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S5000x76.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S16x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S64x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7_0) S5000x77.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v7_1) S5000x65.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v29) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x24.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg16) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S64x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg18) S1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v33) S5000x82.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x64 : Shape := ⟨2, ![50000, 64]⟩
abbrev S50000x4x3 : Shape := ⟨3, ![50000, 4, 3]⟩
abbrev S800000 : Shape := ⟨1, ![800000]⟩
abbrev S144x64 : Shape := ⟨2, ![144, 64]⟩
abbrev S64 : Shape := ⟨1, ![64]⟩
abbrev S64x64 : Shape := ⟨2, ![64, 64]⟩
abbrev S192x64 : Shape := ⟨2, ![192, 64]⟩
abbrev S64x1 : Shape := ⟨2, ![64, 1]⟩
abbrev S1 : Shape := ⟨1, ![1]⟩
abbrev S_ : Shape := ⟨0, ![]⟩
abbrev S800000x1 : Shape := ⟨2, ![800000, 1]⟩
abbrev S800000x4x3 : Shape := ⟨3, ![800000, 4, 3]⟩
abbrev S800000x4x4 : Shape := ⟨3, ![800000, 4, 4]⟩
abbrev S800000x16 : Shape := ⟨2, ![800000, 16]⟩
abbrev S800000x64 : Shape := ⟨2, ![800000, 64]⟩
abbrev S800000x144 : Shape := ⟨2, ![800000, 144]⟩
abbrev S1x64 : Shape := ⟨2, ![1, 64]⟩
abbrev S800000x1x1 : Shape := ⟨3, ![800000, 1, 1]⟩
abbrev S50000 : Shape := ⟨1, ![50000]⟩
abbrev S50000x1x1 : Shape := ⟨3, ![50000, 1, 1]⟩
abbrev S50000x1 : Shape := ⟨2, ![50000, 1]⟩
abbrev S50000x192 : Shape := ⟨2, ![50000, 192]⟩
abbrev S1x1 : Shape := ⟨2, ![1, 1]⟩
abbrev S50000x1x3 : Shape := ⟨3, ![50000, 1, 3]⟩
abbrev S50000x3 : Shape := ⟨2, ![50000, 3]⟩

abbrev nBuf : Space → Nat
  | .hbm => 163
  | .vmem => 0
  | .smem => 0
  | _ => 0

abbrev hbmTy0_0 (i : Nat) : BufTy := match i % 128 with
  | 0 => ⟨S50000x64, .f32⟩
  | 1 => ⟨S50000x4x3, .f32⟩
  | 2 => ⟨S800000, .i32⟩
  | 3 => ⟨S800000, .i32⟩
  | 4 => ⟨S144x64, .f32⟩
  | 5 => ⟨S64, .f32⟩
  | 6 => ⟨S64x64, .f32⟩
  | 7 => ⟨S64, .f32⟩
  | 8 => ⟨S192x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x1, .f32⟩
  | 15 => ⟨S64x64, .f32⟩
  | 16 => ⟨S64, .f32⟩
  | 17 => ⟨S64x1, .f32⟩
  | 18 => ⟨S1, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x4x3, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x4x3, .f32⟩
  | 37 => ⟨S800000x4x3, .f32⟩
  | 38 => ⟨S800000x4x4, .f32⟩
  | 39 => ⟨S800000x16, .f32⟩
  | 40 => ⟨S800000x16, .f32⟩
  | 41 => ⟨S_, .f32⟩
  | 42 => ⟨S800000, .f32⟩
  | 43 => ⟨S800000x1, .f32⟩
  | 44 => ⟨S800000x1, .f32⟩
  | 45 => ⟨S_, .f32⟩
  | 46 => ⟨S800000x1, .f32⟩
  | 47 => ⟨S800000x1, .f32⟩
  | 48 => ⟨S800000x16, .f32⟩
  | 49 => ⟨S800000x16, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x64, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x64, .f32⟩
  | 68 => ⟨S800000x144, .f32⟩
  | 69 => ⟨S800000x64, .f32⟩
  | 70 => ⟨S1x64, .f32⟩
  | 71 => ⟨S800000x64, .f32⟩
  | 72 => ⟨S800000x64, .f32⟩
  | 73 => ⟨S_, .f32⟩
  | 74 => ⟨S800000x64, .f32⟩
  | 75 => ⟨S800000x64, .f32⟩
  | 76 => ⟨S800000x64, .f32⟩
  | 77 => ⟨S1x64, .f32⟩
  | 78 => ⟨S800000x64, .f32⟩
  | 79 => ⟨S800000x64, .f32⟩
  | 80 => ⟨S_, .f32⟩
  | 81 => ⟨S800000x64, .f32⟩
  | 82 => ⟨S800000x64, .f32⟩
  | 83 => ⟨S800000x64, .f32⟩
  | 84 => ⟨S1x64, .f32⟩
  | 85 => ⟨S800000x64, .f32⟩
  | 86 => ⟨S800000x64, .f32⟩
  | 87 => ⟨S_, .f32⟩
  | 88 => ⟨S800000x64, .f32⟩
  | 89 => ⟨S800000x64, .f32⟩
  | 90 => ⟨S800000x1, .f32⟩
  | 91 => ⟨S800000x1x1, .f32⟩
  | 92 => ⟨S800000x4x3, .f32⟩
  | 93 => ⟨S800000x4x3, .f32⟩
  | 94 => ⟨S_, .f32⟩
  | 95 => ⟨S50000x4x3, .f32⟩
  | 96 => ⟨S800000x1, .i32⟩
  | 97 => ⟨S50000x4x3, .f32⟩
  | 98 => ⟨S_, .f32⟩
  | 99 => ⟨S800000, .f32⟩
  | 100 => ⟨S_, .f32⟩
  | 101 => ⟨S50000, .f32⟩
  | 102 => ⟨S800000x1, .i32⟩
  | 103 => ⟨S50000, .f32⟩
  | 104 => ⟨S_, .f32⟩
  | 105 => ⟨S50000, .f32⟩
  | 106 => ⟨S50000, .f32⟩
  | 107 => ⟨S50000x1x1, .f32⟩
  | 108 => ⟨S50000x4x3, .f32⟩
  | 109 => ⟨S50000x4x3, .f32⟩
  | 110 => ⟨S50000x4x3, .f32⟩
  | 111 => ⟨S_, .f32⟩
  | 112 => ⟨S50000x64, .f32⟩
  | 113 => ⟨S800000x1, .i32⟩
  | 114 => ⟨S50000x64, .f32⟩
  | 115 => ⟨S_, .f32⟩
  | 116 => ⟨S50000, .f32⟩
  | 117 => ⟨S800000x1, .i32⟩
  | 118 => ⟨S50000, .f32⟩
  | 119 => ⟨S_, .f32⟩
  | 120 => ⟨S50000, .f32⟩
  | 121 => ⟨S50000, .f32⟩
  | 122 => ⟨S_, .f32⟩
  | 123 => ⟨S50000x64, .f32⟩
  | 124 => ⟨S800000x1, .i32⟩
  | 125 => ⟨S50000x64, .f32⟩
  | 126 => ⟨S50000x1, .f32⟩
  | 127 => ⟨S50000x64, .f32⟩
  | _ => ⟨S50000x64, .f32⟩

abbrev hbmTy0_1 (i : Nat) : BufTy := match i % 128 with
  | 0 => ⟨S50000x64, .f32⟩
  | 1 => ⟨S50000x192, .f32⟩
  | 2 => ⟨S50000x64, .f32⟩
  | 3 => ⟨S1x64, .f32⟩
  | 4 => ⟨S50000x64, .f32⟩
  | 5 => ⟨S50000x64, .f32⟩
  | 6 => ⟨S_, .f32⟩
  | 7 => ⟨S50000x64, .f32⟩
  | 8 => ⟨S50000x64, .f32⟩
  | 9 => ⟨S50000x64, .f32⟩
  | 10 => ⟨S1x64, .f32⟩
  | 11 => ⟨S50000x64, .f32⟩
  | 12 => ⟨S50000x64, .f32⟩
  | 13 => ⟨S50000x64, .f32⟩
  | 14 => ⟨S50000x64, .f32⟩
  | 15 => ⟨S1x64, .f32⟩
  | 16 => ⟨S50000x64, .f32⟩
  | 17 => ⟨S50000x64, .f32⟩
  | 18 => ⟨S_, .f32⟩
  | 19 => ⟨S50000x64, .f32⟩
  | 20 => ⟨S50000x64, .f32⟩
  | 21 => ⟨S50000x1, .f32⟩
  | 22 => ⟨S1x1, .f32⟩
  | 23 => ⟨S50000x1, .f32⟩
  | 24 => ⟨S50000x1, .f32⟩
  | 25 => ⟨S50000x1x3, .f32⟩
  | 26 => ⟨S50000x3, .f32⟩
  | 27 => ⟨S50000x3, .f32⟩
  | 28 => ⟨S50000x3, .f32⟩
  | 29 => ⟨S50000x1x3, .f32⟩
  | 30 => ⟨S50000x3, .f32⟩
  | 31 => ⟨S50000x3, .f32⟩
  | 32 => ⟨S50000x1x3, .f32⟩
  | 33 => ⟨S50000x3, .f32⟩
  | 34 => ⟨S50000x3, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_call0_v0 : Ref sig .tc := ⟨.hbm, 40, rfl⟩
abbrev main_call0_cst : Ref sig .tc := ⟨.hbm, 41, rfl⟩
abbrev main_call0_v1 : Ref sig .tc := ⟨.hbm, 42, rfl⟩
abbrev main_call0_v2 : Ref sig .tc := ⟨.hbm, 43, rfl⟩
abbrev main_v17 : Ref sig .tc := ⟨.hbm, 44, rfl⟩
abbrev main_cst : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_3 : Ref sig .tc := ⟨.hbm, 50, rfl⟩
abbrev main_v22 : Ref sig .tc := ⟨.hbm, 51, rfl⟩
abbrev main_v23 : Ref sig .tc := ⟨.hbm, 52, rfl⟩
abbrev main_c_4 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_5 : Ref sig .tc := ⟨.hbm, 59, rfl⟩
abbrev main_v29 : Ref sig .tc := ⟨.hbm, 60, rfl⟩
abbrev main_v30 : Ref sig .tc := ⟨.hbm, 61, rfl⟩
abbrev main_c_6 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_call1_cst : Ref sig .tc := ⟨.hbm, 73, rfl⟩
abbrev main_call1_v0 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_call2_cst : Ref sig .tc := ⟨.hbm, 80, rfl⟩
abbrev main_call2_v0 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_call3_cst : Ref sig .tc := ⟨.hbm, 87, rfl⟩
abbrev main_call3_v0 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_7 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_8 : Ref sig .tc := ⟨.hbm, 98, rfl⟩
abbrev main_v59 : Ref sig .tc := ⟨.hbm, 99, rfl⟩
abbrev main_cst_9 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_10 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_11 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_12 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_13 : Ref sig .tc := ⟨.hbm, 119, rfl⟩
abbrev main_v75 : Ref sig .tc := ⟨.hbm, 120, rfl⟩
abbrev main_v76 : Ref sig .tc := ⟨.hbm, 121, rfl⟩
abbrev main_cst_14 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_call4_cst : Ref sig .tc := ⟨.hbm, 134, rfl⟩
abbrev main_call4_v0 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_call5_cst : Ref sig .tc := ⟨.hbm, 146, rfl⟩
abbrev main_call5_v0 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  shapeCasts_S800000x4x4_S800000x16 : S800000x4x4.ShapeCasts S800000x16
  reducesTo_S800000x16_S800000_d1 : S800000x16.ReducesTo [1] S800000
  h_S_ : 0 < S_.numel
  bcast_S_S800000x1 : S_.BroadcastsInDim S800000x1 (![] : Fin 0 → Fin S800000x1.rank)
  bcast_S800000x1_S800000x16_0_1 : S800000x1.BroadcastsInDim S800000x16 (![0, 1] : Fin 2 → Fin S800000x16.rank)
  concatenates_S800000x64_S800000x64_S800000x16_S800000x144_d1 : Shape.Concatenates [S800000x64, S800000x64, S800000x16] S800000x144 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S800000x1_S800000x1x1_0_1 : S800000x1.BroadcastsInDim S800000x1x1 (![0, 1] : Fin 2 → Fin S800000x1x1.rank)
  bcast_S800000x1x1_S800000x4x3_0_1_2 : S800000x1x1.BroadcastsInDim S800000x4x3 (![0, 1, 2] : Fin 3 → Fin S800000x4x3.rank)
  bcast_S_S50000x4x3 : S_.BroadcastsInDim S50000x4x3 (![] : Fin 0 → Fin S50000x4x3.rank)
  bcast_S_S50000 : S_.BroadcastsInDim S50000 (![] : Fin 0 → Fin S50000.rank)
  bcast_S50000_S50000x1x1_0 : S50000.BroadcastsInDim S50000x1x1 (![0] : Fin 1 → Fin S50000x1x1.rank)
  bcast_S50000x1x1_S50000x4x3_0_1_2 : S50000x1x1.BroadcastsInDim S50000x4x3 (![0, 1, 2] : Fin 3 → Fin S50000x4x3.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x64_S50000x192_d1 : Shape.Concatenates [S50000x64, S50000x64, S50000x64] S50000x192 1
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  slices_S50000x4x3_S50000x1x3_0_1_0 : S50000x4x3.Slices ![0, 1, 0] S50000x1x3
  shapeCasts_S50000x1x3_S50000x3 : S50000x1x3.ShapeCasts S50000x3
  bcast_S50000x1_S50000x3_0_1 : S50000x1.BroadcastsInDim S50000x3 (![0, 1] : Fin 2 → Fin S50000x3.rank)
  slices_S50000x4x3_S50000x1x3_0_0_0 : S50000x4x3.Slices ![0, 0, 0] S50000x1x3
  gather_S50000x4x3_S800000x1_S800000x4x3_12_0_n_n_0_1_143_wf : GatherDims.WF S50000x4x3 S800000x1 S800000x4x3 [1, 2] [0] [] [0] [] 1 ![1, 4, 3]
  dot_S800000x4x3_S800000x4x3_S800000x4x4_2_2_1_1_0_0_wf : DotDims.WF S800000x4x3 S800000x4x3 S800000x4x4 [2] [2] [1] [1] [0] [0]
  gather_S50000x64_S800000x1_S800000x64_1_0_n_n_0_1_164_wf : GatherDims.WF S50000x64 S800000x1 S800000x64 [1] [0] [] [0] [] 1 ![1, 64]
  dot_S800000x144_S144x64_S800000x64_1_0_0_1_n_n_wf : DotDims.WF S800000x144 S144x64 S800000x64 [1] [0] [0] [1] [] []
  dot_S800000x64_S64x64_S800000x64_1_0_0_1_n_n_wf : DotDims.WF S800000x64 S64x64 S800000x64 [1] [0] [0] [1] [] []
  dot_S800000x64_S64x1_S800000x1_1_0_0_1_n_n_wf : DotDims.WF S800000x64 S64x1 S800000x1 [1] [0] [0] [1] [] []
  scatter_S50000x4x3_S800000x1_S800000x4x3_12_0_0_1_wf : ScatterDims.WF S50000x4x3 S800000x1 S800000x4x3 [1, 2] [0] [0] 1
  scatter_S50000_S800000x1_S800000_n_0_0_1_wf : ScatterDims.WF S50000 S800000x1 S800000 [] [0] [0] 1
  scatter_S50000x64_S800000x1_S800000x64_1_0_0_1_wf : ScatterDims.WF S50000x64 S800000x1 S800000x64 [1] [0] [0] 1
  dot_S50000x192_S192x64_S50000x64_1_0_0_1_n_n_wf : DotDims.WF S50000x192 S192x64 S50000x64 [1] [0] [0] [1] [] []
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []

variable [Facts₀]

def gather_S50000x4x3_S800000x1_S800000x4x3_12_0_n_n_0_1_143 : GatherDims S50000x4x3 S800000x1 S800000x4x3 where
  offsetDims := [1, 2]
  collapsedSliceDims := [0]
  operandBatchingDims := []
  startIndicesBatchingDims := []
  startIndexMap := [0]
  indexVectorDim := 1
  sliceSizes := ![1, 4, 3]
  wf := gather_S50000x4x3_S800000x1_S800000x4x3_12_0_n_n_0_1_143_wf
def dot_S800000x4x3_S800000x4x3_S800000x4x4_2_2_1_1_0_0 : DotDims S800000x4x3 S800000x4x3 S800000x4x4 where
  lhsContracting := [2]
  rhsContracting := [2]
  lhsNonContracting := [1]
  rhsNonContracting := [1]
  lhsBatch := [0]
  rhsBatch := [0]
  wf := dot_S800000x4x3_S800000x4x3_S800000x4x4_2_2_1_1_0_0_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x144_S144x64_S800000x64_1_0_0_1_n_n : DotDims S800000x144 S144x64 S800000x64 where
  lhsContracting := [1]
  rhsContracting := [0]
  lhsNonContracting := [0]
  rhsNonContracting := [1]
  lhsBatch := []
  rhsBatch := []
  wf := dot_S800000x144_S144x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def scatter_S50000x4x3_S800000x1_S800000x4x3_12_0_0_1 : ScatterDims S50000x4x3 S800000x1 S800000x4x3 where
  updateWindowDims := [1, 2]
  insertedWindowDims := [0]
  scatterDimsToOperandDims := [0]
  indexVectorDim := 1
  wf := scatter_S50000x4x3_S800000x1_S800000x4x3_12_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KPay.lean ====
/- The rectangles the two kernel bodies read and write, and what each store holds as a pure term of the blocks read. -/
import proofs.«412281_j28432683499987_4_alg».proof.Proof.Gen.Kernel.Skeleton
import Idealize.ShloMosaic.Lib.Pipeline.FrameBody

noncomputable section

namespace Cert.Kernel.Hand

open Idealize.ShloMosaic Idealize.ShloMosaic.TcCoe
open Cert.Kernel Cert.Kernel.Gen

variable {F : FTy → Type} [FloatOps F]

abbrev rH76 : Rect S5000x76 := Rect.unit (s := S5000x76) ![0, 0] S5000x64.size inb_S5000x76_S5000x64_0_0
abbrev rZ76 : Rect S5000x76 := Rect.unit (s := S5000x76) ![0, 64] S5000x12.size inb_S5000x76_S5000x12_0_64
abbrev rW64x64 : Rect S64x64 := Rect.unit (s := S64x64) ![0, 0] S64x64.size inb_S64x64_S64x64_0_0
abbrev rW16x64 : Rect S16x64 := Rect.unit (s := S16x64) ![0, 0] S16x64.size inb_S16x64_S16x64_0_0
abbrev rB64 : Rect S64 := Rect.unit (s := S64) ![0] S64.size inb_S64_S64_0
abbrev rW64x1 : Rect S64x1 := Rect.unit (s := S64x1) ![0, 0] S64x1.size inb_S64x1_S64x1_0_0
abbrev rO77 : Rect S5000x77 := Rect.unit (s := S5000x77) ![0, 0] S5000x77.size inb_S5000x77_S5000x77_0_0
abbrev rO65 : Rect S5000x65 := Rect.unit (s := S5000x65) ![0, 0] S5000x65.size inb_S5000x65_S5000x65_0_0
abbrev rN256 : Rect S5000x256 := Rect.unit (s := S5000x256) ![0, 0] S5000x256.size inb_S5000x256_S5000x256_0_0
abbrev rNh256 : Rect S5000x256 := Rect.unit (s := S5000x256) ![0, 64] S5000x64.size inb_S5000x256_S5000x64_0_64
abbrev rW256x64 : Rect S256x64 := Rect.unit (s := S256x64) ![0, 0] S256x64.size inb_S256x64_S256x64_0_0
abbrev rZa24 : Rect S5000x24 := Rect.unit (s := S5000x24) ![0, 0] S5000x12.size inb_S5000x24_S5000x12_0_0
abbrev rZb24 : Rect S5000x24 := Rect.unit (s := S5000x24) ![0, 12] S5000x12.size inb_S5000x24_S5000x12_0_12
abbrev rB1 : Rect S1 := Rect.unit (s := S1) ![0] S1.size inb_S1_S1_0
abbrev rO82 : Rect S5000x82 := Rect.unit (s := S5000x82) ![0, 0] S5000x82.size inb_S5000x82_S5000x82_0_0

def edgePre (x0 x1 : Vec F S5000x76 .f32) (x2 x3 : Vec F S64x64 .f32) (x4 : Vec F S16x64 .f32) : FVec F S5000x64 .f32 :=
  k0_pay22 (k0_pay5 (View.ld x0 rH76)) (k0_pay6 (View.ld x1 rH76))
    (k0_pay8 (View.ld x0 rZ76) (View.ld x1 rZ76)) (k0_pay9 (View.ld x0 rZ76) (View.ld x1 rZ76))
    (k0_pay10 (View.ld x0 rZ76) (View.ld x1 rZ76)) (k0_pay11 (View.ld x0 rZ76) (View.ld x1 rZ76))
    (k0_pay12 (View.ld x0 rZ76) (View.ld x1 rZ76)) (k0_pay13 (View.ld x0 rZ76) (View.ld x1 rZ76))
    (k0_pay14 (View.ld x0 rZ76) (View.ld x1 rZ76)) (k0_pay15 (View.ld x0 rZ76) (View.ld x1 rZ76))
    (k0_pay16 (View.ld x0 rZ76) (View.ld x1 rZ76)) (k0_pay17 (View.ld x0 rZ76) (View.ld x1 rZ76))
    (k0_pay18 (View.ld x0 rZ76) (View.ld x1 rZ76)) (k0_pay19 (View.ld x0 rZ76) (View.ld x1 rZ76))
    (k0_pay20 (View.ld x0 rZ76) (View.ld x1 rZ76)) (k0_pay21 (View.ld x0 rZ76) (View.ld x1 rZ76))
    (View.ld x2 rW64x64) (View.ld x3 rW64x64) (View.ld x4 rW16x64)

def pay0_11 (x0 x1 : Vec F S5000x76 .f32) (x2 x3 : Vec F S64x64 .f32) (x4 : Vec F S16x64 .f32) (x5 : Vec F S64 .f32)
    (x6 : Vec F S64x64 .f32) (x7 : Vec F S64 .f32) (x8 : Vec F S64x64 .f32) (x9 : Vec F S64 .f32) (x10 : Vec F S64x1 .f32) :
    FVec F S5000x77 .f32 :=
  k0_pay3 (k0_pay7 (View.ld x0 rZ76) (View.ld x1 rZ76)) (edgePre x0 x1 x2 x3 x4) (k0_pay23 (View.ld x5 rB64))
    (View.ld x6 rW64x64) (View.ld x7 rB64) (View.ld x8 rW64x64) (View.ld x9 rB64) (View.ld x10 rW64x1)

def pay0_12 (x0 x1 : Vec F S5000x76 .f32) (x2 x3 : Vec F S64x64 .f32) (x4 : Vec F S16x64 .f32) (x5 : Vec F S64 .f32)
    (x6 : Vec F S64x64 .f32) (x7 : Vec F S64 .f32) : FVec F S5000x65 .f32 :=
  k0_pay4 (edgePre x0 x1 x2 x3 x4) (k0_pay23 (View.ld x5 rB64)) (View.ld x6 rW64x64) (View.ld x7 rB64)

def pay1_10 (x0 : Vec F S5000x256 .f32) (x1 : Vec F S5000x24 .f32) (x2 : Vec F S256x64 .f32) (x3 : Vec F S64 .f32)
    (x4 : Vec F S64x64 .f32) (x5 : Vec F S64 .f32) (x6 : Vec F S64x64 .f32) (x7 : Vec F S64 .f32) (x8 : Vec F S64x1 .f32)
    (x9 : Vec F S1 .f32) : FVec F S5000x82 .f32 :=
  k1_pay1
    (k1_pay2 (View.ld x0 rN256) (View.ld x0 rNh256) (View.ld x2 rW256x64) (View.ld x3 rB64) (View.ld x4 rW64x64) (View.ld x5 rB64))
    (k1_pay5 (View.ld x1 rZa24) (View.ld x1 rZb24)) (k1_pay6 (View.ld x1 rZa24)) (k1_pay7 (View.ld x1 rZa24)) (k1_pay8 (View.ld x1 rZb24))
    (k1_pay9 (View.ld x0 rN256) (View.ld x0 rNh256) (View.ld x2 rW256x64) (View.ld x3 rB64) (View.ld x4 rW64x64) (View.ld x5 rB64)
      (View.ld x6 rW64x64) (View.ld x7 rB64))
    (View.ld x8 rW64x1) (View.ld x9 rB1)

end Cert.Kernel.Hand

end
-- ==== Proof.KRegion0.lean ====
import proofs.«412281_j28432683499987_4_alg».proof.Proof.Gen.Kernel.Launch
import proofs.«412281_j28432683499987_4_alg».proof.Proof.Gen.Kernel.Skeleton
import proofs.«412281_j28432683499987_4_alg».proof.Proof.Gen.Kernel.Points
import proofs.«412281_j28432683499987_4_alg».proof.Proof.KPay
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_11 (x0 x1 : Vec F S5000x76 .f32) (x2 x3 : Vec F S64x64 .f32) (x4 : Vec F S16x64 .f32) (x5 : Vec F S64 .f32)
    (x6 : Vec F S64x64 .f32) (x7 : Vec F S64 .f32) (x8 : Vec F S64x64 .f32) (x9 : Vec F S64 .f32) (x10 : Vec F S64x1 .f32) :
    Vec F S5000x77 .f32 :=
  View.canon [⟨rO77, pay0_11 x0 x1 x2 x3 x4 x5 x6 x7 x8 x9 x10⟩]

def out0_12 (x0 x1 : Vec F S5000x76 .f32) (x2 x3 : Vec F S64x64 .f32) (x4 : Vec F S16x64 .f32) (x5 : Vec F S64 .f32)
    (x6 : Vec F S64x64 .f32) (x7 : Vec F S64 .f32) : Vec F S5000x65 .f32 :=
  View.canon [⟨rO65, pay0_12 x0 x1 x2 x3 x4 x5 x6 x7⟩]

set_option maxHeartbeats 1000000 in
theorem sound_kernel0 (c : Dev nD) (E : Set ℕ) (i : grid0.Coords)
    (arg1 : Memref sig .tc .vmem S5000x76 .f32) (harg1 : arg1.IsWhole) (arg2 : Memref sig .tc .vmem S5000x76 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S16x64 .f32) (harg5 : arg5.IsWhole) (arg6 : Memref sig .tc .vmem S64 .f32) (harg6 : arg6.IsWhole)
    (arg7 : Memref sig .tc .vmem S64x64 .f32) (harg7 : arg7.IsWhole) (arg8 : Memref sig .tc .vmem S64 .f32) (harg8 : arg8.IsWhole)
    (arg9 : Memref sig .tc .vmem S64x64 .f32) (harg9 : arg9.IsWhole) (arg10 : Memref sig .tc .vmem S64 .f32) (harg10 : arg10.IsWhole)
    (arg11 : Memref sig .tc .vmem S64x1 .f32) (harg11 : arg11.IsWhole)
    (arg12 : Memref sig .tc .vmem S5000x77 .f32) (harg12 : arg12.IsWhole) (arg13 : Memref sig .tc .vmem S5000x65 .f32) (harg13 : arg13.IsWhole)
    (x0 x1 : Vec F S5000x76 .f32) (x2 x3 : Vec F S64x64 .f32) (x4 : Vec F S16x64 .f32) (x5 : Vec F S64 .f32)
    (x6 : Vec F S64x64 .f32) (x7 : Vec F S64 .f32) (x8 : Vec F S64x64 .f32) (x9 : Vec F S64 .f32) (x10 : Vec F S64x1 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10
            ∗ owns (c : Thread nD τ) arg12 fullShare (out0_11 x0 x1 x2 x3 x4 x5 x6 x7 x8 x9 x10)
            ∗ owns (c : Thread nD τ) arg13 fullShare (out0_12 x0 x1 x2 x3 x4 x5 x6 x7)) -∗ K ⟨⟩))
      ⊢ wp frame (wpE (defs₀ (F := F)) Variants.none c none) E
          (cc0__edge_kernel i arg1 harg1 arg2 harg2 arg3 harg3 arg4 harg4 arg5 harg5 arg6 harg6 arg7 harg7 arg8 harg8
            arg9 harg9 arg10 harg10 arg11 harg11 arg12 harg12 arg13 harg13) K := by
  simp only [cc0__edge_kernel_eq_skeleton]; unfold cc0__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩,
    ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ fun y => View.cover_of_tiled [⟨rO77, _⟩] S5000x77.size (by rfl) y
  iexists _; isplitr
  swap; · iexact H12
  ipureintro
  exact View.read_writes_eq_canon _ _ _ fun y => View.cover_of_tiled [⟨rO65, _⟩] S5000x65.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by
  dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) := by
  dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d
theorem before0_5 (c : Dev nD) (t : Fin cfg0.N) (d) : (dat0 V c).before 5 t d = iblk0 V c 5 t :=
  (dat0 V c).before_in_eq_fetched 5 rfl (fun _ => rfl) (fun _ _ _ => rfl) (fun _ => rfl) t d
theorem before0_6 (c : Dev nD) (t : Fin cfg0.N) (d) : (dat0 V c).before 6 t d = iblk0 V c 6 t :=
  (dat0 V c).before_in_eq_fetched 6 rfl (fun _ => rfl) (fun _ _ _ => rfl) (fun _ => rfl) t d
theorem before0_7 (c : Dev nD) (t : Fin cfg0.N) (d) : (dat0 V c).before 7 t d = iblk0 V c 7 t :=
  (dat0 V c).before_in_eq_fetched 7 rfl (fun _ => rfl) (fun _ _ _ => rfl) (fun _ => rfl) t d
theorem before0_8 (c : Dev nD) (t : Fin cfg0.N) (d) : (dat0 V c).before 8 t d = iblk0 V c 8 t :=
  (dat0 V c).before_in_eq_fetched 8 rfl (fun _ => rfl) (fun _ _ _ => rfl) (fun _ => rfl) t d
theorem before0_9 (c : Dev nD) (t : Fin cfg0.N) (d) : (dat0 V c).before 9 t d = iblk0 V c 9 t :=
  (dat0 V c).before_in_eq_fetched 9 rfl (fun _ => rfl) (fun _ _ _ => rfl) (fun _ => rfl) t d
theorem before0_10 (c : Dev nD) (t : Fin cfg0.N) (d) : (dat0 V c).before 10 t d = iblk0 V c 10 t :=
  (dat0 V c).before_in_eq_fetched 10 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  iframe H0 H1 H2 H3 H4 H5 H6 H7 H8 H9 H10
  isplitl [H11]; · iexists _; iexact H11
  isplitl [H12]; · iexists _; iexact H12
  iintro ⟨H0, H1, H2, H3, H4, H5, H6, H7, H8, H9, H10, H11, H12⟩
  dsimp only [dat0]
  iframe

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KRegion1.lean ====
import proofs.«412281_j28432683499987_4_alg».proof.Proof.Gen.Kernel.Launch
import proofs.«412281_j28432683499987_4_alg».proof.Proof.Gen.Kernel.Skeleton
import proofs.«412281_j28432683499987_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«412281_j28432683499987_4_alg».proof.Proof.KPay

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_10 (x0 : Vec F S5000x256 .f32) (x1 : Vec F S5000x24 .f32) (x2 : Vec F S256x64 .f32) (x3 : Vec F S64 .f32) (x4 : Vec F S64x64 .f32) (x5 : Vec F S64 .f32) (x6 : Vec F S64x64 .f32) (x7 : Vec F S64 .f32) (x8 : Vec F S64x1 .f32) (x9 : Vec F S1 .f32) : Vec F S5000x82 .f32 :=
  View.canon [⟨rO82, pay1_10 x0 x1 x2 x3 x4 x5 x6 x7 x8 x9⟩]

set_option maxHeartbeats 1000000 in
theorem sound_kernel1 (c : Dev nD) (E : Set ℕ) (i : grid1.Coords) (arg1 : Memref sig .tc .vmem S5000x256 .f32) (harg1 : arg1.IsWhole) (arg2 : Memref sig .tc .vmem S5000x24 .f32) (harg2 : arg2.IsWhole) (arg3 : Memref sig .tc .vmem S256x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x1 .f32) (harg9 : arg9.IsWhole) (arg10 : Memref sig .tc .vmem S1 .f32) (harg10 : arg10.IsWhole) (arg11 : Memref sig .tc .vmem S5000x82 .f32) (harg11 : arg11.IsWhole)
    (x0 : Vec F S5000x256 .f32) (x1 : Vec F S5000x24 .f32) (x2 : Vec F S256x64 .f32) (x3 : Vec F S64 .f32) (x4 : Vec F S64x64 .f32) (x5 : Vec F S64 .f32) (x6 : Vec F S64x64 .f32) (x7 : Vec F S64 .f32) (x8 : Vec F S64x1 .f32) (x9 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x2 x3 x4 x5 x6 x7 x8 x9)) -∗ K ⟨⟩))
      ⊢ wp frame (wpE (defs₀ (F := F)) Variants.none c none) E (cc1__node_kernel i arg1 harg1 arg2 harg2 arg3 harg3 arg4 harg4 arg5 harg5 arg6 harg6 arg7 harg7 arg8 harg8 arg9 harg9 arg10 harg10 arg11 harg11) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  iexists _; isplitr
  swap; · iexact H10
  ipureintro
  exact View.read_writes_eq_canon _ _ _ fun y => View.cover_of_tiled [⟨rO82, _⟩] S5000x82.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by
  dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d
theorem before1_6 (c : Dev nD) (t : Fin cfg1.N) (d) : (dat1 V c).before 6 t d = iblk1 V c 6 t :=
  (dat1 V c).before_in_eq_fetched 6 rfl (fun _ => rfl) (fun _ _ _ => rfl) (fun _ => rfl) t d
theorem before1_7 (c : Dev nD) (t : Fin cfg1.N) (d) : (dat1 V c).before 7 t d = iblk1 V c 7 t :=
  (dat1 V c).before_in_eq_fetched 7 rfl (fun _ => rfl) (fun _ _ _ => rfl) (fun _ => rfl) t d
theorem before1_8 (c : Dev nD) (t : Fin cfg1.N) (d) : (dat1 V c).before 8 t d = iblk1 V c 8 t :=
  (dat1 V c).before_in_eq_fetched 8 rfl (fun _ => rfl) (fun _ _ _ => rfl) (fun _ => rfl) t d
theorem before1_9 (c : Dev nD) (t : Fin cfg1.N) (d) : (dat1 V c).before 9 t d = iblk1 V c 9 t :=
  (dat1 V c).before_in_eq_fetched 9 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  iframe H0 H1 H2 H3 H4 H5 H6 H7 H8 H9
  isplitl [H10]; · iexists _; iexact H10
  iintro ⟨H0, H1, H2, H3, H4, H5, H6, H7, H8, H9, H10⟩
  dsimp only [dat1]
  iframe

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRun.lean ====
import proofs.«412281_j28432683499987_4_alg».proof.Proof.KRegion0
import proofs.«412281_j28432683499987_4_alg».proof.Proof.KRegion1
import proofs.«412281_j28432683499987_4_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev U4 : (c : Dev nD) → (b : Ref sig .tc) → Buf (Elt F) ((c : Thread nD τ).loc b) := fun c b => W4 m c b
def W5 (c : Dev nD) : Valuation τ sig (Elt F) :=
  Pipeline.withArrays spec0 c (W4 m c) fun w => (dat0 (U4 m) c).arrAt w cfg0.N
abbrev W6 : Dev nD → Valuation τ sig (Elt F) := fun c => StableHlo.after hostOps1 (W5 m c)
abbrev U6 : (c : Dev nD) → (b : Ref sig .tc) → Buf (Elt F) ((c : Thread nD τ).loc b) := fun c b => W6 m c b
def W7 (c : Dev nD) : Valuation τ sig (Elt F) :=
  Pipeline.withArrays spec1 c (W6 m c) fun w => (dat1 (U6 m) c).arrAt w cfg1.N
abbrev W8 : Dev nD → Valuation τ sig (Elt F) := fun c => StableHlo.after hostOps2 (W7 m c)

theorem W5_arr (c : Dev nD) (w : Fin cfg0.W) :
    W5 m c (Proc.devRef .tc (Pipeline.arrRef spec0 w)) = (dat0 (U4 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb
abbrev U5 : (c : Dev nD) → (b : Ref sig .tc) → Buf (Elt F) ((c : Thread nD τ).loc b) := fun c b => W5 m c b
theorem hF0 (c : Dev nD) (w : Fin cfg0.W) : (dat0 (U4 m) c).arrAt w cfg0.N = U5 m c (Pipeline.arrRef spec0 w) :=
  (W5_arr m c w).symm
theorem hrest0 (c : Dev nD) : ∀ b, b ∉ Finset.univ.image (Pipeline.arrRef spec0) → U5 m c b = U4 m c b :=
  fun b hb => W5_of_ne m c b fun w e => hb (Finset.mem_image.mpr ⟨w, Finset.mem_univ _, e⟩)

theorem W7_arr (c : Dev nD) (w : Fin cfg1.W) :
    W7 m c (Proc.devRef .tc (Pipeline.arrRef spec1 w)) = (dat1 (U6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev U7 : (c : Dev nD) → (b : Ref sig .tc) → Buf (Elt F) ((c : Thread nD τ).loc b) := fun c b => W7 m c b
theorem hF1 (c : Dev nD) (w : Fin cfg1.W) : (dat1 (U6 m) c).arrAt w cfg1.N = U7 m c (Pipeline.arrRef spec1 w) :=
  (W7_arr m c w).symm
theorem hrest1 (c : Dev nD) : ∀ b, b ∉ Finset.univ.image (Pipeline.arrRef spec1) → U7 m c b = U6 m c b :=
  fun b hb => W7_of_ne m c b fun w e => hb (Finset.mem_image.mpr ⟨w, Finset.mem_univ _, e⟩)

theorem W5_keep (c : Dev nD) (b : Ref sig .tc) (h0 : b ≠ main_v7_0) (h1 : b ≠ main_v7_1) :
    W5 m c (Proc.devRef .tc b) = W4 m c (Proc.devRef .tc b) := by
  by_cases hb : ∃ w, Pipeline.arrRef spec0 w = b
  · obtain ⟨w, rfl⟩ := hb
    rw [W5_arr]
    have key : ∀ w : Fin cfg0.W, Pipeline.arrRef spec0 w ≠ main_v7_0 → Pipeline.arrRef spec0 w ≠ main_v7_1 →
        (dat0 (U4 m) c).arrAt w cfg0.N = (dat0 (U4 m) c).A w := by
      intro w
      match w with
      | ⟨11, _⟩ => exact fun h _ => absurd rfl h
      | ⟨12, _⟩ => exact fun _ h => absurd rfl h
      | ⟨0, _⟩ | ⟨1, _⟩ | ⟨2, _⟩ | ⟨3, _⟩ | ⟨4, _⟩ | ⟨5, _⟩ | ⟨6, _⟩ | ⟨7, _⟩ | ⟨8, _⟩ | ⟨9, _⟩ | ⟨10, _⟩ => exact fun _ _ => (dat0 (U4 m) c).arrAt_in _ rfl _
    rw [key w h0 h1, A_eq0]
  · exact W5_of_ne m c b fun w e => hb ⟨w, e⟩

theorem W7_keep (c : Dev nD) (b : Ref sig .tc) (h0 : b ≠ main_v33) :
    W7 m c (Proc.devRef .tc b) = W6 m c (Proc.devRef .tc b) := by
  by_cases hb : ∃ w, Pipeline.arrRef spec1 w = b
  · obtain ⟨w, rfl⟩ := hb
    rw [W7_arr]
    have key : ∀ w : Fin cfg1.W, Pipeline.arrRef spec1 w ≠ main_v33 →
        (dat1 (U6 m) c).arrAt w cfg1.N = (dat1 (U6 m) c).A w := by
      intro w
      match w with
      | ⟨10, _⟩ => exact fun h => absurd rfl h
      | ⟨0, _⟩ | ⟨1, _⟩ | ⟨2, _⟩ | ⟨3, _⟩ | ⟨4, _⟩ | ⟨5, _⟩ | ⟨6, _⟩ | ⟨7, _⟩ | ⟨8, _⟩ | ⟨9, _⟩ => exact fun _ => (dat1 (U6 m) c).arrAt_in _ rfl _
    rw [key w h0, A_eq1]
  · exact W7_of_ne m c b fun w e => hb ⟨w, e⟩

theorem W8_keep (c : Dev nD) (b : Ref sig .tc) (h0 : b ∉ hostOps0_W) (h1 : b ∉ hostOps0_1_W) (h2 : b ∉ hostOps0_2_W)
    (h3 : b ∉ hostOps0_3_W) (h5 : b ∉ hostOps1_W) (h7 : b ∉ hostOps2_W)
    (ha : b ≠ main_v7_0) (hb : b ≠ main_v7_1) (hc : b ≠ main_v33) :
    W8 m c (Proc.devRef .tc b) = m ((c : Thread nD τ).loc b) :=
  (StableHlo.after_of_writes_sub hostOps2 _ hostOps2_writes h7).trans <|
  (W7_keep m c b hc).trans <|
  (StableHlo.after_of_writes_sub hostOps1 _ hostOps1_writes h5).trans <|
  (W5_keep m c b ha hb).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

abbrev adm' : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm' p) c
  | ⟨0, _⟩ => fun c => dat0 (U4 m) c
  | ⟨1, _⟩ => fun c => dat1 (U6 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)
theorem last_chain (c : Dev nD) :
    iprop(StableHlo.held (c : Thread nD τ) (Pipeline.ucRefs τ sig) (W8 m c) ∗ R (F := F) c)
      ⊢ iprop(Tₙ m c ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U4 m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (U4 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (U4 m c) (U5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (U6 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (U6 m c) (U7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm' (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .host (hseg hostOps1 hostOps1_sub hostOps1_fresh (W5 m)),
    .region (reg1 m),
    .host (hseg hostOps2 hostOps2_sub hostOps2_fresh (W7 m)) ]

set_option backward.isDefEq.respectTransparency.types false in
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit_dev (pcfgs (F := F)) adm' (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, last_chain m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

end Cert.Kernel.Hand

end
-- ==== Proof.KFrame.lean ====
import proofs.«412281_j28432683499987_4_alg».proof.Proof.KRun

set_option maxRecDepth 16384

noncomputable section

namespace Cert.Kernel.Hand

open Idealize.ShloMosaic Idealize.ShloMosaic.TcCoe Idealize.ShloMosaic.Tactic
open Idealize.SL Idealize.SL.Sem
open Cert.Kernel Cert.Kernel.Gen

variable {F : FTy → Type} [FloatOps F]

variable (m : (ℓ : Loc nD τ sig) → Buf (Elt F) ℓ)

abbrev Untouched (b : Ref sig .tc) : Prop :=
  (¬ (Proc.devRef .tc b : DevRef τ sig).isScoped) ∧ b ∉ hostOps0_W ∧ b ∉ hostOps0_1_W ∧ b ∉ hostOps0_2_W ∧ b ∉ hostOps0_3_W
    ∧ b ∉ hostOps1_W ∧ b ∉ hostOps2_W ∧ b ≠ main_v7_0 ∧ b ≠ main_v7_1 ∧ b ≠ main_v33

/-- An array that nothing writes ends as launched. -/
theorem arg_kept (c : Dev nD) (b : Ref sig .tc) (hb : Untouched b) (s : MemSt nD τ sig (Elt F))
    (h : ∀ c : Dev nD, ∀ b ∈ Pipeline.ucRefs τ sig, s.mem (((c : Thread nD τ)).1, b) = W8 m c b) :
    s.mem ((c.tc : Thread nD τ).loc b) = m ((c.tc : Thread nD τ).loc b) :=
  (h c _ (mem_uc b hb.1)).trans
    (W8_keep m c b hb.2.1 hb.2.2.1 hb.2.2.2.1 hb.2.2.2.2.1 hb.2.2.2.2.2.1 hb.2.2.2.2.2.2.1 hb.2.2.2.2.2.2.2.1
      hb.2.2.2.2.2.2.2.2.1 hb.2.2.2.2.2.2.2.2.2)

/-- The nineteen argument arrays are as launched. -/
abbrev ArgsKept (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)
    ∧ s.mem ((c.tc : Thread nD τ).loc main_arg15) = m ((c.tc : Thread nD τ).loc main_arg15)
    ∧ s.mem ((c.tc : Thread nD τ).loc main_arg16) = m ((c.tc : Thread nD τ).loc main_arg16)
    ∧ s.mem ((c.tc : Thread nD τ).loc main_arg17) = m ((c.tc : Thread nD τ).loc main_arg17)
    ∧ s.mem ((c.tc : Thread nD τ).loc main_arg18) = m ((c.tc : Thread nD τ).loc main_arg18)

theorem run_results (g : Dev nD → PrngReg) :
    θ_run defs (onTc (τ := τ) (main (F := F))) ⟨m, fun _ => 0, g⟩ (fun r => ∀ c : Dev nD,
      r.2.mem ((c.tc : Thread nD τ).loc main_v34) = W8 m c main_v34
      ∧ r.2.mem ((c.tc : Thread nD τ).loc main_v38) = W8 m c main_v38
      ∧ r.2.mem ((c.tc : Thread nD τ).loc main_v36) = W8 m c main_v36
      ∧ r.2.mem ((c.tc : Thread nD τ).loc main_v37) = W8 m c main_v37
      ∧ ArgsKept m r.2 c) :=
  (θ_run defs _ _).mono (fun r h c =>
    ⟨h c _ (mem_uc main_v34 (by decide)), h c _ (mem_uc main_v38 (by decide)),
     h c _ (mem_uc main_v36 (by decide)), h c _ (mem_uc main_v37 (by decide)),
     arg_kept m c main_arg0 (by decide) r.2 h,
     arg_kept m c main_arg1 (by decide) r.2 h,
     arg_kept m c main_arg2 (by decide) r.2 h,
     arg_kept m c main_arg3 (by decide) r.2 h,
     arg_kept m c main_arg4 (by decide) r.2 h,
     arg_kept m c main_arg5 (by decide) r.2 h,
     arg_kept m c main_arg6 (by decide) r.2 h,
     arg_kept m c main_arg7 (by decide) r.2 h,
     arg_kept m c main_arg8 (by decide) r.2 h,
     arg_kept m c main_arg9 (by decide) r.2 h,
     arg_kept m c main_arg10 (by decide) r.2 h,
     arg_kept m c main_arg11 (by decide) r.2 h,
     arg_kept m c main_arg12 (by decide) r.2 h,
     arg_kept m c main_arg13 (by decide) r.2 h,
     arg_kept m c main_arg14 (by decide) r.2 h,
     arg_kept m c main_arg15 (by decide) r.2 h,
     arg_kept m c main_arg16 (by decide) r.2 h,
     arg_kept m c main_arg17 (by decide) r.2 h,
     arg_kept m c main_arg18 (by decide) r.2 h⟩)
    (run_all m g)

theorem frame (g : Dev nD → PrngReg) :
    θ_run defs (onTc (τ := τ) (main (F := F))) ⟨m, fun _ => 0, g⟩ (fun r => ∀ c : Dev nD, ArgsKept m r.2 c) :=
  (θ_run defs _ _).mono (fun r h c => (h c).2.2.2.2) (run_results m g)

end Cert.Kernel.Hand

end
-- ==== Proof.KIPay.lean ====
/- The rectangles the two kernel bodies read and write, and what each store holds as a pure term of the blocks read. -/
import proofs.«412281_j28432683499987_4_alg».proof.Proof.Gen.KernelIdeal.Skeleton
import Idealize.ShloMosaic.Lib.Pipeline.FrameBody

noncomputable section

namespace Cert.KernelIdeal.Hand

open Idealize.ShloMosaic Idealize.ShloMosaic.TcCoe
open Cert.KernelIdeal Cert.KernelIdeal.Gen

variable {F : FTy → Type} [FloatOps F]

abbrev rH76 : Rect S5000x76 := Rect.unit (s := S5000x76) ![0, 0] S5000x64.size inb_S5000x76_S5000x64_0_0
abbrev rZ76 : Rect S5000x76 := Rect.unit (s := S5000x76) ![0, 64] S5000x12.size inb_S5000x76_S5000x12_0_64
abbrev rW64x64 : Rect S64x64 := Rect.unit (s := S64x64) ![0, 0] S64x64.size inb_S64x64_S64x64_0_0
abbrev rW16x64 : Rect S16x64 := Rect.unit (s := S16x64) ![0, 0] S16x64.size inb_S16x64_S16x64_0_0
abbrev rB64 : Rect S64 := Rect.unit (s := S64) ![0] S64.size inb_S64_S64_0
abbrev rW64x1 : Rect S64x1 := Rect.unit (s := S64x1) ![0, 0] S64x1.size inb_S64x1_S64x1_0_0
abbrev rO77 : Rect S5000x77 := Rect.unit (s := S5000x77) ![0, 0] S5000x77.size inb_S5000x77_S5000x77_0_0
abbrev rO65 : Rect S5000x65 := Rect.unit (s := S5000x65) ![0, 0] S5000x65.size inb_S5000x65_S5000x65_0_0
abbrev rN256 : Rect S5000x256 := Rect.unit (s := S5000x256) ![0, 0] S5000x256.size inb_S5000x256_S5000x256_0_0
abbrev rNh256 : Rect S5000x256 := Rect.unit (s := S5000x256) ![0, 64] S5000x64.size inb_S5000x256_S5000x64_0_64
abbrev rW256x64 : Rect S256x64 := Rect.unit (s := S256x64) ![0, 0] S256x64.size inb_S256x64_S256x64_0_0
abbrev rZa24 : Rect S5000x24 := Rect.unit (s := S5000x24) ![0, 0] S5000x12.size inb_S5000x24_S5000x12_0_0
abbrev rZb24 : Rect S5000x24 := Rect.unit (s := S5000x24) ![0, 12] S5000x12.size inb_S5000x24_S5000x12_0_12
abbrev rB1 : Rect S1 := Rect.unit (s := S1) ![0] S1.size inb_S1_S1_0
abbrev rO82 : Rect S5000x82 := Rect.unit (s := S5000x82) ![0, 0] S5000x82.size inb_S5000x82_S5000x82_0_0

def edgePre (x0 x1 : Vec F S5000x76 .f32) (x2 x3 : Vec F S64x64 .f32) (x4 : Vec F S16x64 .f32) : FVec F S5000x64 .f32 :=
  k0_pay22 (k0_pay5 (View.ld x0 rH76)) (k0_pay6 (View.ld x1 rH76))
    (k0_pay8 (View.ld x0 rZ76) (View.ld x1 rZ76)) (k0_pay9 (View.ld x0 rZ76) (View.ld x1 rZ76))
    (k0_pay10 (View.ld x0 rZ76) (View.ld x1 rZ76)) (k0_pay11 (View.ld x0 rZ76) (View.ld x1 rZ76))
    (k0_pay12 (View.ld x0 rZ76) (View.ld x1 rZ76)) (k0_pay13 (View.ld x0 rZ76) (View.ld x1 rZ76))
    (k0_pay14 (View.ld x0 rZ76) (View.ld x1 rZ76)) (k0_pay15 (View.ld x0 rZ76) (View.ld x1 rZ76))
    (k0_pay16 (View.ld x0 rZ76) (View.ld x1 rZ76)) (k0_pay17 (View.ld x0 rZ76) (View.ld x1 rZ76))
    (k0_pay18 (View.ld x0 rZ76) (View.ld x1 rZ76)) (k0_pay19 (View.ld x0 rZ76) (View.ld x1 rZ76))
    (k0_pay20 (View.ld x0 rZ76) (View.ld x1 rZ76)) (k0_pay21 (View.ld x0 rZ76) (View.ld x1 rZ76))
    (View.ld x2 rW64x64) (View.ld x3 rW64x64) (View.ld x4 rW16x64)

def pay0_11 (x0 x1 : Vec F S5000x76 .f32) (x2 x3 : Vec F S64x64 .f32) (x4 : Vec F S16x64 .f32) (x5 : Vec F S64 .f32)
    (x6 : Vec F S64x64 .f32) (x7 : Vec F S64 .f32) (x8 : Vec F S64x64 .f32) (x9 : Vec F S64 .f32) (x10 : Vec F S64x1 .f32) :
    FVec F S5000x77 .f32 :=
  k0_pay3 (k0_pay7 (View.ld x0 rZ76) (View.ld x1 rZ76)) (edgePre x0 x1 x2 x3 x4) (k0_pay23 (View.ld x5 rB64))
    (View.ld x6 rW64x64) (View.ld x7 rB64) (View.ld x8 rW64x64) (View.ld x9 rB64) (View.ld x10 rW64x1)

def pay0_12 (x0 x1 : Vec F S5000x76 .f32) (x2 x3 : Vec F S64x64 .f32) (x4 : Vec F S16x64 .f32) (x5 : Vec F S64 .f32)
    (x6 : Vec F S64x64 .f32) (x7 : Vec F S64 .f32) : FVec F S5000x65 .f32 :=
  k0_pay4 (edgePre x0 x1 x2 x3 x4) (k0_pay23 (View.ld x5 rB64)) (View.ld x6 rW64x64) (View.ld x7 rB64)

def pay1_10 (x0 : Vec F S5000x256 .f32) (x1 : Vec F S5000x24 .f32) (x2 : Vec F S256x64 .f32) (x3 : Vec F S64 .f32)
    (x4 : Vec F S64x64 .f32) (x5 : Vec F S64 .f32) (x6 : Vec F S64x64 .f32) (x7 : Vec F S64 .f32) (x8 : Vec F S64x1 .f32)
    (x9 : Vec F S1 .f32) : FVec F S5000x82 .f32 :=
  k1_pay1
    (k1_pay2 (View.ld x0 rN256) (View.ld x0 rNh256) (View.ld x2 rW256x64) (View.ld x3 rB64) (View.ld x4 rW64x64) (View.ld x5 rB64))
    (k1_pay5 (View.ld x1 rZa24) (View.ld x1 rZb24)) (k1_pay6 (View.ld x1 rZa24)) (k1_pay7 (View.ld x1 rZa24)) (k1_pay8 (View.ld x1 rZb24))
    (k1_pay9 (View.ld x0 rN256) (View.ld x0 rNh256) (View.ld x2 rW256x64) (View.ld x3 rB64) (View.ld x4 rW64x64) (View.ld x5 rB64)
      (View.ld x6 rW64x64) (View.ld x7 rB64))
    (View.ld x8 rW64x1) (View.ld x9 rB1)

end Cert.KernelIdeal.Hand

end
-- ==== Proof.KIRegion0.lean ====
import proofs.«412281_j28432683499987_4_alg».proof.Proof.Gen.KernelIdeal.Launch
import proofs.«412281_j28432683499987_4_alg».proof.Proof.Gen.KernelIdeal.Skeleton
import proofs.«412281_j28432683499987_4_alg».proof.Proof.Gen.KernelIdeal.Points
import proofs.«412281_j28432683499987_4_alg».proof.Proof.KIPay
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_11 (x0 x1 : Vec F S5000x76 .f32) (x2 x3 : Vec F S64x64 .f32) (x4 : Vec F S16x64 .f32) (x5 : Vec F S64 .f32)
    (x6 : Vec F S64x64 .f32) (x7 : Vec F S64 .f32) (x8 : Vec F S64x64 .f32) (x9 : Vec F S64 .f32) (x10 : Vec F S64x1 .f32) :
    Vec F S5000x77 .f32 :=
  View.canon [⟨rO77, pay0_11 x0 x1 x2 x3 x4 x5 x6 x7 x8 x9 x10⟩]

def out0_12 (x0 x1 : Vec F S5000x76 .f32) (x2 x3 : Vec F S64x64 .f32) (x4 : Vec F S16x64 .f32) (x5 : Vec F S64 .f32)
    (x6 : Vec F S64x64 .f32) (x7 : Vec F S64 .f32) : Vec F S5000x65 .f32 :=
  View.canon [⟨rO65, pay0_12 x0 x1 x2 x3 x4 x5 x6 x7⟩]

set_option maxHeartbeats 1000000 in
theorem sound_kernel0 (c : Dev nD) (E : Set ℕ) (i : grid0.Coords)
    (arg1 : Memref sig .tc .vmem S5000x76 .f32) (harg1 : arg1.IsWhole) (arg2 : Memref sig .tc .vmem S5000x76 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S16x64 .f32) (harg5 : arg5.IsWhole) (arg6 : Memref sig .tc .vmem S64 .f32) (harg6 : arg6.IsWhole)
    (arg7 : Memref sig .tc .vmem S64x64 .f32) (harg7 : arg7.IsWhole) (arg8 : Memref sig .tc .vmem S64 .f32) (harg8 : arg8.IsWhole)
    (arg9 : Memref sig .tc .vmem S64x64 .f32) (harg9 : arg9.IsWhole) (arg10 : Memref sig .tc .vmem S64 .f32) (harg10 : arg10.IsWhole)
    (arg11 : Memref sig .tc .vmem S64x1 .f32) (harg11 : arg11.IsWhole)
    (arg12 : Memref sig .tc .vmem S5000x77 .f32) (harg12 : arg12.IsWhole) (arg13 : Memref sig .tc .vmem S5000x65 .f32) (harg13 : arg13.IsWhole)
    (x0 x1 : Vec F S5000x76 .f32) (x2 x3 : Vec F S64x64 .f32) (x4 : Vec F S16x64 .f32) (x5 : Vec F S64 .f32)
    (x6 : Vec F S64x64 .f32) (x7 : Vec F S64 .f32) (x8 : Vec F S64x64 .f32) (x9 : Vec F S64 .f32) (x10 : Vec F S64x1 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10
            ∗ owns (c : Thread nD τ) arg12 fullShare (out0_11 x0 x1 x2 x3 x4 x5 x6 x7 x8 x9 x10)
            ∗ owns (c : Thread nD τ) arg13 fullShare (out0_12 x0 x1 x2 x3 x4 x5 x6 x7)) -∗ K ⟨⟩))
      ⊢ wp frame (wpE (defs₀ (F := F)) Variants.none c none) E
          (cc0__edge_kernel i arg1 harg1 arg2 harg2 arg3 harg3 arg4 harg4 arg5 harg5 arg6 harg6 arg7 harg7 arg8 harg8
            arg9 harg9 arg10 harg10 arg11 harg11 arg12 harg12 arg13 harg13) K := by
  simp only [cc0__edge_kernel_eq_skeleton]; unfold cc0__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩,
    ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ fun y => View.cover_of_tiled [⟨rO77, _⟩] S5000x77.size (by rfl) y
  iexists _; isplitr
  swap; · iexact H12
  ipureintro
  exact View.read_writes_eq_canon _ _ _ fun y => View.cover_of_tiled [⟨rO65, _⟩] S5000x65.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by
  dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) := by
  dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d
theorem before0_5 (c : Dev nD) (t : Fin cfg0.N) (d) : (dat0 V c).before 5 t d = iblk0 V c 5 t :=
  (dat0 V c).before_in_eq_fetched 5 rfl (fun _ => rfl) (fun _ _ _ => rfl) (fun _ => rfl) t d
theorem before0_6 (c : Dev nD) (t : Fin cfg0.N) (d) : (dat0 V c).before 6 t d = iblk0 V c 6 t :=
  (dat0 V c).before_in_eq_fetched 6 rfl (fun _ => rfl) (fun _ _ _ => rfl) (fun _ => rfl) t d
theorem before0_7 (c : Dev nD) (t : Fin cfg0.N) (d) : (dat0 V c).before 7 t d = iblk0 V c 7 t :=
  (dat0 V c).before_in_eq_fetched 7 rfl (fun _ => rfl) (fun _ _ _ => rfl) (fun _ => rfl) t d
theorem before0_8 (c : Dev nD) (t : Fin cfg0.N) (d) : (dat0 V c).before 8 t d = iblk0 V c 8 t :=
  (dat0 V c).before_in_eq_fetched 8 rfl (fun _ => rfl) (fun _ _ _ => rfl) (fun _ => rfl) t d
theorem before0_9 (c : Dev nD) (t : Fin cfg0.N) (d) : (dat0 V c).before 9 t d = iblk0 V c 9 t :=
  (dat0 V c).before_in_eq_fetched 9 rfl (fun _ => rfl) (fun _ _ _ => rfl) (fun _ => rfl) t d
theorem before0_10 (c : Dev nD) (t : Fin cfg0.N) (d) : (dat0 V c).before 10 t d = iblk0 V c 10 t :=
  (dat0 V c).before_in_eq_fetched 10 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  iframe H0 H1 H2 H3 H4 H5 H6 H7 H8 H9 H10
  isplitl [H11]; · iexists _; iexact H11
  isplitl [H12]; · iexists _; iexact H12
  iintro ⟨H0, H1, H2, H3, H4, H5, H6, H7, H8, H9, H10, H11, H12⟩
  dsimp only [dat0]
  iframe

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIRegion1.lean ====
import proofs.«412281_j28432683499987_4_alg».proof.Proof.Gen.KernelIdeal.Launch
import proofs.«412281_j28432683499987_4_alg».proof.Proof.Gen.KernelIdeal.Skeleton
import proofs.«412281_j28432683499987_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«412281_j28432683499987_4_alg».proof.Proof.KIPay

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_10 (x0 : Vec F S5000x256 .f32) (x1 : Vec F S5000x24 .f32) (x2 : Vec F S256x64 .f32) (x3 : Vec F S64 .f32) (x4 : Vec F S64x64 .f32) (x5 : Vec F S64 .f32) (x6 : Vec F S64x64 .f32) (x7 : Vec F S64 .f32) (x8 : Vec F S64x1 .f32) (x9 : Vec F S1 .f32) : Vec F S5000x82 .f32 :=
  View.canon [⟨rO82, pay1_10 x0 x1 x2 x3 x4 x5 x6 x7 x8 x9⟩]

set_option maxHeartbeats 1000000 in
theorem sound_kernel1 (c : Dev nD) (E : Set ℕ) (i : grid1.Coords) (arg1 : Memref sig .tc .vmem S5000x256 .f32) (harg1 : arg1.IsWhole) (arg2 : Memref sig .tc .vmem S5000x24 .f32) (harg2 : arg2.IsWhole) (arg3 : Memref sig .tc .vmem S256x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x1 .f32) (harg9 : arg9.IsWhole) (arg10 : Memref sig .tc .vmem S1 .f32) (harg10 : arg10.IsWhole) (arg11 : Memref sig .tc .vmem S5000x82 .f32) (harg11 : arg11.IsWhole)
    (x0 : Vec F S5000x256 .f32) (x1 : Vec F S5000x24 .f32) (x2 : Vec F S256x64 .f32) (x3 : Vec F S64 .f32) (x4 : Vec F S64x64 .f32) (x5 : Vec F S64 .f32) (x6 : Vec F S64x64 .f32) (x7 : Vec F S64 .f32) (x8 : Vec F S64x1 .f32) (x9 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x2 x3 x4 x5 x6 x7 x8 x9)) -∗ K ⟨⟩))
      ⊢ wp frame (wpE (defs₀ (F := F)) Variants.none c none) E (cc1__node_kernel i arg1 harg1 arg2 harg2 arg3 harg3 arg4 harg4 arg5 harg5 arg6 harg6 arg7 harg7 arg8 harg8 arg9 harg9 arg10 harg10 arg11 harg11) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  iexists _; isplitr
  swap; · iexact H10
  ipureintro
  exact View.read_writes_eq_canon _ _ _ fun y => View.cover_of_tiled [⟨rO82, _⟩] S5000x82.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by
  dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d
theorem before1_6 (c : Dev nD) (t : Fin cfg1.N) (d) : (dat1 V c).before 6 t d = iblk1 V c 6 t :=
  (dat1 V c).before_in_eq_fetched 6 rfl (fun _ => rfl) (fun _ _ _ => rfl) (fun _ => rfl) t d
theorem before1_7 (c : Dev nD) (t : Fin cfg1.N) (d) : (dat1 V c).before 7 t d = iblk1 V c 7 t :=
  (dat1 V c).before_in_eq_fetched 7 rfl (fun _ => rfl) (fun _ _ _ => rfl) (fun _ => rfl) t d
theorem before1_8 (c : Dev nD) (t : Fin cfg1.N) (d) : (dat1 V c).before 8 t d = iblk1 V c 8 t :=
  (dat1 V c).before_in_eq_fetched 8 rfl (fun _ => rfl) (fun _ _ _ => rfl) (fun _ => rfl) t d
theorem before1_9 (c : Dev nD) (t : Fin cfg1.N) (d) : (dat1 V c).before 9 t d = iblk1 V c 9 t :=
  (dat1 V c).before_in_eq_fetched 9 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  iframe H0 H1 H2 H3 H4 H5 H6 H7 H8 H9
  isplitl [H10]; · iexists _; iexact H10
  iintro ⟨H0, H1, H2, H3, H4, H5, H6, H7, H8, H9, H10⟩
  dsimp only [dat1]
  iframe

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KIRun.lean ====
import proofs.«412281_j28432683499987_4_alg».proof.Proof.KIRegion0
import proofs.«412281_j28432683499987_4_alg».proof.Proof.KIRegion1
import proofs.«412281_j28432683499987_4_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev U4 : (c : Dev nD) → (b : Ref sig .tc) → Buf (Elt F) ((c : Thread nD τ).loc b) := fun c b => W4 m c b
def W5 (c : Dev nD) : Valuation τ sig (Elt F) :=
  Pipeline.withArrays spec0 c (W4 m c) fun w => (dat0 (U4 m) c).arrAt w cfg0.N
abbrev W6 : Dev nD → Valuation τ sig (Elt F) := fun c => StableHlo.after hostOps1 (W5 m c)
abbrev U6 : (c : Dev nD) → (b : Ref sig .tc) → Buf (Elt F) ((c : Thread nD τ).loc b) := fun c b => W6 m c b
def W7 (c : Dev nD) : Valuation τ sig (Elt F) :=
  Pipeline.withArrays spec1 c (W6 m c) fun w => (dat1 (U6 m) c).arrAt w cfg1.N
abbrev W8 : Dev nD → Valuation τ sig (Elt F) := fun c => StableHlo.after hostOps2 (W7 m c)

theorem W5_arr (c : Dev nD) (w : Fin cfg0.W) :
    W5 m c (Proc.devRef .tc (Pipeline.arrRef spec0 w)) = (dat0 (U4 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb
abbrev U5 : (c : Dev nD) → (b : Ref sig .tc) → Buf (Elt F) ((c : Thread nD τ).loc b) := fun c b => W5 m c b
theorem hF0 (c : Dev nD) (w : Fin cfg0.W) : (dat0 (U4 m) c).arrAt w cfg0.N = U5 m c (Pipeline.arrRef spec0 w) :=
  (W5_arr m c w).symm
theorem hrest0 (c : Dev nD) : ∀ b, b ∉ Finset.univ.image (Pipeline.arrRef spec0) → U5 m c b = U4 m c b :=
  fun b hb => W5_of_ne m c b fun w e => hb (Finset.mem_image.mpr ⟨w, Finset.mem_univ _, e⟩)

theorem W7_arr (c : Dev nD) (w : Fin cfg1.W) :
    W7 m c (Proc.devRef .tc (Pipeline.arrRef spec1 w)) = (dat1 (U6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev U7 : (c : Dev nD) → (b : Ref sig .tc) → Buf (Elt F) ((c : Thread nD τ).loc b) := fun c b => W7 m c b
theorem hF1 (c : Dev nD) (w : Fin cfg1.W) : (dat1 (U6 m) c).arrAt w cfg1.N = U7 m c (Pipeline.arrRef spec1 w) :=
  (W7_arr m c w).symm
theorem hrest1 (c : Dev nD) : ∀ b, b ∉ Finset.univ.image (Pipeline.arrRef spec1) → U7 m c b = U6 m c b :=
  fun b hb => W7_of_ne m c b fun w e => hb (Finset.mem_image.mpr ⟨w, Finset.mem_univ _, e⟩)

theorem W5_keep (c : Dev nD) (b : Ref sig .tc) (h0 : b ≠ main_v7_0) (h1 : b ≠ main_v7_1) :
    W5 m c (Proc.devRef .tc b) = W4 m c (Proc.devRef .tc b) := by
  by_cases hb : ∃ w, Pipeline.arrRef spec0 w = b
  · obtain ⟨w, rfl⟩ := hb
    rw [W5_arr]
    have key : ∀ w : Fin cfg0.W, Pipeline.arrRef spec0 w ≠ main_v7_0 → Pipeline.arrRef spec0 w ≠ main_v7_1 →
        (dat0 (U4 m) c).arrAt w cfg0.N = (dat0 (U4 m) c).A w := by
      intro w
      match w with
      | ⟨11, _⟩ => exact fun h _ => absurd rfl h
      | ⟨12, _⟩ => exact fun _ h => absurd rfl h
      | ⟨0, _⟩ | ⟨1, _⟩ | ⟨2, _⟩ | ⟨3, _⟩ | ⟨4, _⟩ | ⟨5, _⟩ | ⟨6, _⟩ | ⟨7, _⟩ | ⟨8, _⟩ | ⟨9, _⟩ | ⟨10, _⟩ => exact fun _ _ => (dat0 (U4 m) c).arrAt_in _ rfl _
    rw [key w h0 h1, A_eq0]
  · exact W5_of_ne m c b fun w e => hb ⟨w, e⟩

theorem W7_keep (c : Dev nD) (b : Ref sig .tc) (h0 : b ≠ main_v33) :
    W7 m c (Proc.devRef .tc b) = W6 m c (Proc.devRef .tc b) := by
  by_cases hb : ∃ w, Pipeline.arrRef spec1 w = b
  · obtain ⟨w, rfl⟩ := hb
    rw [W7_arr]
    have key : ∀ w : Fin cfg1.W, Pipeline.arrRef spec1 w ≠ main_v33 →
        (dat1 (U6 m) c).arrAt w cfg1.N = (dat1 (U6 m) c).A w := by
      intro w
      match w with
      | ⟨10, _⟩ => exact fun h => absurd rfl h
      | ⟨0, _⟩ | ⟨1, _⟩ | ⟨2, _⟩ | ⟨3, _⟩ | ⟨4, _⟩ | ⟨5, _⟩ | ⟨6, _⟩ | ⟨7, _⟩ | ⟨8, _⟩ | ⟨9, _⟩ => exact fun _ => (dat1 (U6 m) c).arrAt_in _ rfl _
    rw [key w h0, A_eq1]
  · exact W7_of_ne m c b fun w e => hb ⟨w, e⟩

theorem W8_keep (c : Dev nD) (b : Ref sig .tc) (h0 : b ∉ hostOps0_W) (h1 : b ∉ hostOps0_1_W) (h2 : b ∉ hostOps0_2_W)
    (h3 : b ∉ hostOps0_3_W) (h5 : b ∉ hostOps1_W) (h7 : b ∉ hostOps2_W)
    (ha : b ≠ main_v7_0) (hb : b ≠ main_v7_1) (hc : b ≠ main_v33) :
    W8 m c (Proc.devRef .tc b) = m ((c : Thread nD τ).loc b) :=
  (StableHlo.after_of_writes_sub hostOps2 _ hostOps2_writes h7).trans <|
  (W7_keep m c b hc).trans <|
  (StableHlo.after_of_writes_sub hostOps1 _ hostOps1_writes h5).trans <|
  (W5_keep m c b ha hb).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

abbrev adm' : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm' p) c
  | ⟨0, _⟩ => fun c => dat0 (U4 m) c
  | ⟨1, _⟩ => fun c => dat1 (U6 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)
theorem last_chain (c : Dev nD) :
    iprop(StableHlo.held (c : Thread nD τ) (Pipeline.ucRefs τ sig) (W8 m c) ∗ R (F := F) c)
      ⊢ iprop(Tₙ m c ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U4 m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (U4 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (U4 m c) (U5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (U6 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (U6 m c) (U7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm' (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .host (hseg hostOps1 hostOps1_sub hostOps1_fresh (W5 m)),
    .region (reg1 m),
    .host (hseg hostOps2 hostOps2_sub hostOps2_fresh (W7 m)) ]

set_option backward.isDefEq.respectTransparency.types false in
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit_dev (pcfgs (F := F)) adm' (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, last_chain m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

end Cert.KernelIdeal.Hand

end
-- ==== Proof.KIFrame.lean ====
import proofs.«412281_j28432683499987_4_alg».proof.Proof.KIRun

set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]

variable (m : (ℓ : Loc nD τ sig) → Buf (Elt F) ℓ)

abbrev Untouched (b : Ref sig .tc) : Prop :=
  (¬ (Proc.devRef .tc b : DevRef τ sig).isScoped) ∧ b ∉ hostOps0_W ∧ b ∉ hostOps0_1_W ∧ b ∉ hostOps0_2_W ∧ b ∉ hostOps0_3_W
    ∧ b ∉ hostOps1_W ∧ b ∉ hostOps2_W ∧ b ≠ main_v7_0 ∧ b ≠ main_v7_1 ∧ b ≠ main_v33

/-- An array that nothing writes ends as launched. -/
theorem arg_kept (c : Dev nD) (b : Ref sig .tc) (hb : Untouched b) (s : MemSt nD τ sig (Elt F))
    (h : ∀ c : Dev nD, ∀ b ∈ Pipeline.ucRefs τ sig, s.mem (((c : Thread nD τ)).1, b) = W8 m c b) :
    s.mem ((c.tc : Thread nD τ).loc b) = m ((c.tc : Thread nD τ).loc b) :=
  (h c _ (mem_uc b hb.1)).trans
    (W8_keep m c b hb.2.1 hb.2.2.1 hb.2.2.2.1 hb.2.2.2.2.1 hb.2.2.2.2.2.1 hb.2.2.2.2.2.2.1 hb.2.2.2.2.2.2.2.1
      hb.2.2.2.2.2.2.2.2.1 hb.2.2.2.2.2.2.2.2.2)

/-- The nineteen argument arrays are as launched. -/
abbrev ArgsKept (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)
    ∧ s.mem ((c.tc : Thread nD τ).loc main_arg15) = m ((c.tc : Thread nD τ).loc main_arg15)
    ∧ s.mem ((c.tc : Thread nD τ).loc main_arg16) = m ((c.tc : Thread nD τ).loc main_arg16)
    ∧ s.mem ((c.tc : Thread nD τ).loc main_arg17) = m ((c.tc : Thread nD τ).loc main_arg17)
    ∧ s.mem ((c.tc : Thread nD τ).loc main_arg18) = m ((c.tc : Thread nD τ).loc main_arg18)

theorem run_results (g : Dev nD → PrngReg) :
    θ_run defs (onTc (τ := τ) (main (F := F))) ⟨m, fun _ => 0, g⟩ (fun r => ∀ c : Dev nD,
      r.2.mem ((c.tc : Thread nD τ).loc main_v34) = W8 m c main_v34
      ∧ r.2.mem ((c.tc : Thread nD τ).loc main_v38) = W8 m c main_v38
      ∧ r.2.mem ((c.tc : Thread nD τ).loc main_v36) = W8 m c main_v36
      ∧ r.2.mem ((c.tc : Thread nD τ).loc main_v37) = W8 m c main_v37
      ∧ ArgsKept m r.2 c) :=
  (θ_run defs _ _).mono (fun r h c =>
    ⟨h c _ (mem_uc main_v34 (by decide)), h c _ (mem_uc main_v38 (by decide)),
     h c _ (mem_uc main_v36 (by decide)), h c _ (mem_uc main_v37 (by decide)),
     arg_kept m c main_arg0 (by decide) r.2 h,
     arg_kept m c main_arg1 (by decide) r.2 h,
     arg_kept m c main_arg2 (by decide) r.2 h,
     arg_kept m c main_arg3 (by decide) r.2 h,
     arg_kept m c main_arg4 (by decide) r.2 h,
     arg_kept m c main_arg5 (by decide) r.2 h,
     arg_kept m c main_arg6 (by decide) r.2 h,
     arg_kept m c main_arg7 (by decide) r.2 h,
     arg_kept m c main_arg8 (by decide) r.2 h,
     arg_kept m c main_arg9 (by decide) r.2 h,
     arg_kept m c main_arg10 (by decide) r.2 h,
     arg_kept m c main_arg11 (by decide) r.2 h,
     arg_kept m c main_arg12 (by decide) r.2 h,
     arg_kept m c main_arg13 (by decide) r.2 h,
     arg_kept m c main_arg14 (by decide) r.2 h,
     arg_kept m c main_arg15 (by decide) r.2 h,
     arg_kept m c main_arg16 (by decide) r.2 h,
     arg_kept m c main_arg17 (by decide) r.2 h,
     arg_kept m c main_arg18 (by decide) r.2 h⟩)
    (run_all m g)

theorem frame (g : Dev nD → PrngReg) :
    θ_run defs (onTc (τ := τ) (main (F := F))) ⟨m, fun _ => 0, g⟩ (fun r => ∀ c : Dev nD, ArgsKept m r.2 c) :=
  (θ_run defs _ _).mono (fun r h c => (h c).2.2.2.2) (run_results m g)

end Cert.KernelIdeal.Hand

end
-- ==== Proof.Spec.lean ====
/- One message-passing layer on a graph of 50000 nodes and 800000 edges, as functions on the extended reals. -/
import Idealize.ShloMosaic.PureOps.Ideal
import Idealize.ShloMosaic.Lib.ValueIdx

noncomputable section

open scoped BigOperators

namespace GmnSpec

open Idealize.ShloMosaic

abbrev epsE : EReal := Ideal.ofBits .f32 0x2B8CBCCC#32
abbrev oneE : EReal := Ideal.ofBits .f32 0x3F800000#32

/-- A layer's inputs: node features and coordinate channels, each edge's two ends, and the weights of the five perceptrons. -/
structure Inputs where
  h : Fin 50000 → Fin 64 → EReal
  Z : Fin 50000 → Fin 4 → Fin 3 → EReal
  row : Fin 800000 → Fin 50000
  col : Fin 800000 → Fin 50000
  We1 : Fin 144 → Fin 64 → EReal
  be1 : Fin 64 → EReal
  We2 : Fin 64 → Fin 64 → EReal
  be2 : Fin 64 → EReal
  Wn1 : Fin 192 → Fin 64 → EReal
  bn1 : Fin 64 → EReal
  Wn2 : Fin 64 → Fin 64 → EReal
  bn2 : Fin 64 → EReal
  Wc1 : Fin 64 → Fin 64 → EReal
  bc1 : Fin 64 → EReal
  Wc2 : Fin 64 → EReal
  Wv1 : Fin 64 → Fin 64 → EReal
  bv1 : Fin 64 → EReal
  Wv2 : Fin 64 → EReal
  bv2 : EReal

variable (I : Inputs)

/-- The coordinate difference of an edge's two ends. -/
def cdiff (e : Fin 800000) (a : Fin 4) (t : Fin 3) : EReal := I.Z (I.row e) a t - I.Z (I.col e) a t

/-- The Gram matrix of an edge's four difference vectors. -/
def gram (e : Fin 800000) (j k : Fin 4) : EReal := ∑ t : Fin 3, cdiff I e j t * cdiff I e k t

def gramFlat (e : Fin 800000) (i : Fin 16) : EReal :=
  gram I e ⟨i.val / 4, by omega⟩ ⟨i.val % 4, by omega⟩

def nrm (e : Fin 800000) : EReal := Ideal.sqrt (∑ i : Fin 16, gramFlat I e i * gramFlat I e i)

/-- The Gram matrix over its Euclidean norm, the norm kept at least ε. -/
def radial (e : Fin 800000) (i : Fin 16) : EReal := Ideal.div (gramFlat I e i) (max (nrm I e) epsE)

/-- The edge perceptron's input row: receiver's feature, sender's feature, normalised Gram matrix. -/
def ein (e : Fin 800000) (k : Fin 144) : EReal :=
  if h : k.val < 64 then I.h (I.row e) ⟨k.val, h⟩
  else if h2 : k.val < 128 then I.h (I.col e) ⟨k.val - 64, by omega⟩
  else radial I e ⟨k.val - 128, by omega⟩

def h1 (e : Fin 800000) (j : Fin 64) : EReal := max ((∑ k : Fin 144, ein I e k * I.We1 k j) + I.be1 j) 0

def ef (e : Fin 800000) (j : Fin 64) : EReal := max ((∑ k : Fin 64, h1 I e k * I.We2 k j) + I.be2 j) 0

def hcv (e : Fin 800000) (j : Fin 64) : EReal := max ((∑ k : Fin 64, ef I e k * I.Wc1 k j) + I.bc1 j) 0

def phi (e : Fin 800000) : EReal := ∑ k : Fin 64, hcv I e k * I.Wc2 k

/-- An edge's differences scaled by its coordinate weight. -/
def trans (e : Fin 800000) (a : Fin 4) (t : Fin 3) : EReal := cdiff I e a t * phi I e

def seg (n : Fin 50000) (a : Fin 4) (t : Fin 3) : EReal := ∑ e : Fin 800000, if I.row e = n then trans I e a t else 0

def cntRow (n : Fin 50000) : EReal := max (∑ e : Fin 800000, if I.row e = n then oneE else 0) oneE

/-- The mean of the scaled differences over the edges a node receives. -/
def f (n : Fin 50000) (a : Fin 4) (t : Fin 3) : EReal := Ideal.div (seg I n a t) (cntRow I n)

def Znew (n : Fin 50000) (a : Fin 4) (t : Fin 3) : EReal := I.Z n a t + f I n a t

def agg (n : Fin 50000) (j : Fin 64) : EReal := ∑ e : Fin 800000, if I.row e = n then ef I e j else 0

def cntCol (n : Fin 50000) : EReal := max (∑ e : Fin 800000, if I.col e = n then oneE else 0) oneE

/-- The mean edge feature over the edges a node sends. -/
def others (n : Fin 50000) (j : Fin 64) : EReal :=
  Ideal.div (∑ e : Fin 800000, if I.col e = n then ef I e j else 0) (cntCol I n)

/-- The node perceptron's input row: sent mean, own feature, received sum. -/
def nin (n : Fin 50000) (k : Fin 192) : EReal :=
  if h : k.val < 64 then others I n ⟨k.val, h⟩
  else if h2 : k.val < 128 then I.h n ⟨k.val - 64, by omega⟩
  else agg I n ⟨k.val - 128, by omega⟩

def hn1 (n : Fin 50000) (j : Fin 64) : EReal := max ((∑ k : Fin 192, nin I n k * I.Wn1 k j) + I.bn1 j) 0

def hnew (n : Fin 50000) (j : Fin 64) : EReal := I.h n j + ((∑ k : Fin 64, hn1 I n k * I.Wn2 k j) + I.bn2 j)

def hv (n : Fin 50000) (j : Fin 64) : EReal := max ((∑ k : Fin 64, hnew I n k * I.Wv1 k j) + I.bv1 j) 0

def scale (n : Fin 50000) : EReal := (∑ k : Fin 64, hv I n k * I.Wv2 k) + I.bv2

def vnew (n : Fin 50000) (t : Fin 3) : EReal := scale I n * I.Z n 1 t + f I n 0 t

def xnew (n : Fin 50000) (t : Fin 3) : EReal := I.Z n 0 t + vnew I n t

/-- A node's feature and coordinates as one row of 76. -/
def hz (n : Fin 50000) (j : Fin 76) : EReal :=
  if h : j.val < 64 then I.h n ⟨j.val, h⟩ else I.Z n ⟨(j.val - 64) / 3, by omega⟩ ⟨(j.val - 64) % 3, by omega⟩

/-- An edge's scaled differences, feature and a one as one row of 77; summed by receiver it carries the count in its last entry. -/
def prow (e : Fin 800000) (j : Fin 77) : EReal :=
  if h : j.val < 12 then trans I e ⟨j.val / 3, by omega⟩ ⟨j.val % 3, by omega⟩
  else if h2 : j.val < 76 then ef I e ⟨j.val - 12, by omega⟩ else oneE

def pcol (e : Fin 800000) (j : Fin 65) : EReal := if h : j.val < 64 then ef I e ⟨j.val, h⟩ else oneE

def ninFull (n : Fin 50000) (k : Fin 256) : EReal := if h : k.val < 192 then nin I n ⟨k.val, h⟩ else 0

def Wn1p (k : Fin 256) (j : Fin 64) : EReal := if h : k.val < 192 then I.Wn1 ⟨k.val, h⟩ j else 0

def zf (n : Fin 50000) (j : Fin 24) : EReal :=
  if h : j.val < 12 then I.Z n ⟨j.val / 3, by omega⟩ ⟨j.val % 3, by omega⟩
  else f I n ⟨(j.val - 12) / 3, by omega⟩ ⟨(j.val - 12) % 3, by omega⟩

/-- A node's four results as one row of 82. -/
def nodeOut (n : Fin 50000) (j : Fin 82) : EReal :=
  if h : j.val < 64 then hnew I n ⟨j.val, h⟩
  else if h2 : j.val < 76 then Znew I n ⟨(j.val - 64) / 3, by omega⟩ ⟨(j.val - 64) % 3, by omega⟩
  else if h3 : j.val < 79 then xnew I n ⟨j.val - 76, by omega⟩
  else vnew I n ⟨j.val - 79, by omega⟩

/-- An index word read as a node. -/
def nodeOf (v : BitVec 32) : Fin 50000 := ⟨min v.toInt.toNat 49999, by omega⟩

theorem nodeOf_val {v : BitVec 32} (h0 : 0 ≤ v.toInt) (h1 : v.toInt < 50000) : ((nodeOf v).val : Int) = v.toInt := by
  unfold nodeOf
  simp only
  omega

/-- The nineteen argument arrays read as a layer's inputs. -/
def mkInputs
    (a0 : (⟨2, ![50000, 64]⟩ : Shape).Idx → EReal) (a1 : (⟨3, ![50000, 4, 3]⟩ : Shape).Idx → EReal)
    (a2 a3 : (⟨1, ![800000]⟩ : Shape).Idx → BitVec 32)
    (a4 : (⟨2, ![144, 64]⟩ : Shape).Idx → EReal) (a5 : (⟨1, ![64]⟩ : Shape).Idx → EReal)
    (a6 : (⟨2, ![64, 64]⟩ : Shape).Idx → EReal) (a7 : (⟨1, ![64]⟩ : Shape).Idx → EReal)
    (a8 : (⟨2, ![192, 64]⟩ : Shape).Idx → EReal) (a9 : (⟨1, ![64]⟩ : Shape).Idx → EReal)
    (a10 : (⟨2, ![64, 64]⟩ : Shape).Idx → EReal) (a11 : (⟨1, ![64]⟩ : Shape).Idx → EReal)
    (a12 : (⟨2, ![64, 64]⟩ : Shape).Idx → EReal) (a13 : (⟨1, ![64]⟩ : Shape).Idx → EReal)
    (a14 : (⟨2, ![64, 1]⟩ : Shape).Idx → EReal)
    (a15 : (⟨2, ![64, 64]⟩ : Shape).Idx → EReal) (a16 : (⟨1, ![64]⟩ : Shape).Idx → EReal)
    (a17 : (⟨2, ![64, 1]⟩ : Shape).Idx → EReal) (a18 : (⟨1, ![1]⟩ : Shape).Idx → EReal) : Inputs where
  h n j := a0 (ValueIdx.ix2 n j)
  Z n a t := a1 (ValueIdx.ix3 n a t)
  row e := nodeOf (a2 (ValueIdx.ix1 e))
  col e := nodeOf (a3 (ValueIdx.ix1 e))
  We1 k j := a4 (ValueIdx.ix2 k j)
  be1 j := a5 (ValueIdx.ix1 j)
  We2 k j := a6 (ValueIdx.ix2 k j)
  be2 j := a7 (ValueIdx.ix1 j)
  Wn1 k j := a8 (ValueIdx.ix2 k j)
  bn1 j := a9 (ValueIdx.ix1 j)
  Wn2 k j := a10 (ValueIdx.ix2 k j)
  bn2 j := a11 (ValueIdx.ix1 j)
  Wc1 k j := a12 (ValueIdx.ix2 k j)
  bc1 j := a13 (ValueIdx.ix1 j)
  Wc2 k := a14 (ValueIdx.ix2 k 0)
  Wv1 k j := a15 (ValueIdx.ix2 k j)
  bv1 j := a16 (ValueIdx.ix1 j)
  Wv2 k := a17 (ValueIdx.ix2 k 0)
  bv2 := a18 (ValueIdx.ix1 0)

/-- Both ends of every edge name a node. -/
def InRange (a2 a3 : (⟨1, ![800000]⟩ : Shape).Idx → BitVec 32) : Prop :=
  ∀ e : Fin 800000, (0 ≤ (a2 (ValueIdx.ix1 e)).toInt ∧ (a2 (ValueIdx.ix1 e)).toInt < 50000)
    ∧ (0 ≤ (a3 (ValueIdx.ix1 e)).toInt ∧ (a3 (ValueIdx.ix1 e)).toInt < 50000)

end GmnSpec

end
-- ==== Proof.KIKeep.lean ====
import proofs.«412281_j28432683499987_4_alg».proof.Proof.KIRun
import proofs.«412281_j28432683499987_4_alg».proof.Proof.Spec

noncomputable section

namespace Cert.KernelIdeal.Hand

open Idealize.ShloMosaic Idealize.ShloMosaic.TcCoe Idealize.ShloMosaic.ValueIdx
open Cert.KernelIdeal Cert.KernelIdeal.Gen GmnSpec

variable (m : (ℓ : Loc nD τ sig) → Buf (Elt Ideal) ℓ)

abbrev inp (c : Dev nD) : Inputs :=
  mkInputs (W0 m c main_arg0) (W0 m c main_arg1) (W0 m c main_arg2) (W0 m c main_arg3) (W0 m c main_arg4) (W0 m c main_arg5) (W0 m c main_arg6) (W0 m c main_arg7) (W0 m c main_arg8) (W0 m c main_arg9) (W0 m c main_arg10) (W0 m c main_arg11) (W0 m c main_arg12) (W0 m c main_arg13) (W0 m c main_arg14) (W0 m c main_arg15) (W0 m c main_arg16) (W0 m c main_arg17) (W0 m c main_arg18)

/-- A buffer that no stretch so far writes still holds the launched memory. -/
theorem W1_arg (c : Dev nD) (b : Ref sig .tc) (h0 : b ∉ hostOps0_W) :
    W1 m c (Proc.devRef .tc b) = W0 m c (Proc.devRef .tc b) :=
  StableHlo.after_of_writes_sub hostOps0 _ hostOps0_writes h0
theorem W2_arg (c : Dev nD) (b : Ref sig .tc) (h0 : b ∉ hostOps0_W) (h1 : b ∉ hostOps0_1_W) :
    W2 m c (Proc.devRef .tc b) = W0 m c (Proc.devRef .tc b) :=
  (StableHlo.after_of_writes_sub hostOps0_1 _ hostOps0_1_writes h1).trans (W1_arg m c b h0)
theorem W3_arg (c : Dev nD) (b : Ref sig .tc) (h0 : b ∉ hostOps0_W) (h1 : b ∉ hostOps0_1_W) (h2 : b ∉ hostOps0_2_W) :
    W3 m c (Proc.devRef .tc b) = W0 m c (Proc.devRef .tc b) :=
  (StableHlo.after_of_writes_sub hostOps0_2 _ hostOps0_2_writes h2).trans (W2_arg m c b h0 h1)
theorem W4_keep (c : Dev nD) (b : Ref sig .tc) (h0 : b ∉ hostOps0_W) (h1 : b ∉ hostOps0_1_W) (h2 : b ∉ hostOps0_2_W)
    (h3 : b ∉ hostOps0_3_W) : W4 m c (Proc.devRef .tc b) = W0 m c (Proc.devRef .tc b) :=
  (StableHlo.after_of_writes_sub hostOps0_3 _ hostOps0_3_writes h3).trans (W3_arg m c b h0 h1 h2)

/-- The edge region writes its two output arrays only. -/
theorem W5_keep0 (c : Dev nD) (b : Ref sig .tc) (h0 : b ∉ hostOps0_W) (h1 : b ∉ hostOps0_1_W) (h2 : b ∉ hostOps0_2_W)
    (h3 : b ∉ hostOps0_3_W) (ha : b ≠ main_v7_0) (hb : b ≠ main_v7_1) :
    W5 m c (Proc.devRef .tc b) = W0 m c (Proc.devRef .tc b) :=
  (W5_keep m c b ha hb).trans (W4_keep m c b h0 h1 h2 h3)

theorem W6_keep0 (c : Dev nD) (b : Ref sig .tc) (h0 : b ∉ hostOps0_W) (h1 : b ∉ hostOps0_1_W) (h2 : b ∉ hostOps0_2_W)
    (h3 : b ∉ hostOps0_3_W) (ha : b ≠ main_v7_0) (hb : b ≠ main_v7_1) (h5 : b ∉ hostOps1_W) :
    W6 m c (Proc.devRef .tc b) = W0 m c (Proc.devRef .tc b) :=
  (StableHlo.after_of_writes_sub hostOps1 _ hostOps1_writes h5).trans (W5_keep0 m c b h0 h1 h2 h3 ha hb)

/-- A buffer written once keeps what its writer left. -/
theorem W2_v1 (c : Dev nD) : W2 m c (Proc.devRef .tc main_v1) = W1 m c (Proc.devRef .tc main_v1) :=
  StableHlo.after_of_writes_sub hostOps0_1 _ hostOps0_1_writes (by decide)

theorem W4_v2 (c : Dev nD) : W4 m c (Proc.devRef .tc main_v2) = W2 m c (Proc.devRef .tc main_v2) :=
  (StableHlo.after_of_writes_sub hostOps0_3 _ hostOps0_3_writes (by decide)).trans
    (StableHlo.after_of_writes_sub hostOps0_2 _ hostOps0_2_writes (by decide))

theorem W4_v3 (c : Dev nD) : W4 m c (Proc.devRef .tc main_v3) = W3 m c (Proc.devRef .tc main_v3) :=
  StableHlo.after_of_writes_sub hostOps0_3 _ hostOps0_3_writes (by decide)

theorem W5_v0 (c : Dev nD) : W5 m c (Proc.devRef .tc main_v0) = W1 m c (Proc.devRef .tc main_v0) :=
  (W5_keep m c main_v0 (by decide) (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide))

end Cert.KernelIdeal.Hand

end
-- ==== Proof.KIBlocks.lean ====
import proofs.«412281_j28432683499987_4_alg».proof.Proof.KIRegion0
import proofs.«412281_j28432683499987_4_alg».proof.Proof.KIRegion1
import proofs.«412281_j28432683499987_4_alg».proof.Proof.KIPay
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

namespace Blocks

theorem hz2 : (![0, 0] : Fin 2 → Nat) = fun _ => 0 := funext fun a => by fin_cases a <;> rfl

theorem row0_lt (t : Fin cfg0.N) (p : Fin 5000) : 5000 * t.val + p.val < 800000 := by
  have h1 := t.isLt
  have h2 : cfg0.N = 160 := N_0
  have h3 := p.isLt
  omega

theorem row1_lt (t : Fin cfg1.N) (p : Fin 5000) : 5000 * t.val + p.val < 50000 := by
  have h1 := t.isLt
  have h2 : cfg1.N = 10 := N_1
  have h3 := p.isLt
  omega

/-- An index some block element lands on is in the block. -/
theorem mem_of_emb {sig : RefSig} {κ : Kind} {sp : Space} {S : Shape} {e : EltTy} (v : View sig κ sp S e) {i : v.ty.Idx} (y : S.Idx)
    (h : v.emb y = i) : i ∈ v.set := h ▸ v.emb_mem_set y

/-- Indices with the same coordinates read the same element. -/
theorem at_eq {S : Shape} {α : Type} (f : S.Idx → α) {i j : S.Idx} (h : ∀ a, (i a : Nat) = j a) : f i = f j :=
  congrArg f (funext fun a => Fin.ext (h a))

/-- Block offsets: the row-tiled windows' blocks start at row 5000 t, every other block at the origin. -/
theorem offs0 : ∀ (w : Fin 13) (t : Fin grid0.N) (a : Fin (cfg0.win w).shape.rank),
    (cfg0.win w).index t a * (cfg0.win w).size a = if (w.val < 2 ∨ 10 < w.val) ∧ a.val = 0 then 5000 * t.val else 0 := by
  decide +kernel

theorem emb0 (w : Fin 13) (t : Fin cfg0.N) (y : ((cfg0.win w).xblock (grid0.coords t)).Idx) (a : Fin (cfg0.win w).shape.rank) :
    (((cfg0.win w).rect t).emb y a : Nat) = if (w.val < 2 ∨ 10 < w.val) ∧ a.val = 0 then 5000 * t.val + y a else y a := by
  rw [(cfg0.win w).rect_emb_val t y a, offs0 w t a]; split <;> omega

/-- Block offsets: the row-tiled windows' blocks start at row 5000 t, every other block at the origin. -/
theorem offs1 : ∀ (w : Fin 11) (t : Fin grid1.N) (a : Fin (cfg1.win w).shape.rank),
    (cfg1.win w).index t a * (cfg1.win w).size a = if (w.val < 2 ∨ 9 < w.val) ∧ a.val = 0 then 5000 * t.val else 0 := by
  decide +kernel

theorem emb1 (w : Fin 11) (t : Fin cfg1.N) (y : ((cfg1.win w).xblock (grid1.coords t)).Idx) (a : Fin (cfg1.win w).shape.rank) :
    (((cfg1.win w).rect t).emb y a : Nat) = if (w.val < 2 ∨ 9 < w.val) ∧ a.val = 0 then 5000 * t.val + y a else y a := by
  rw [(cfg1.win w).rect_emb_val t y a, offs1 w t a]; split <;> omega

end Blocks

open Blocks

section Region0
variable (V : (c : Dev nD) → (b : Ref sig .tc) → Buf (Elt Ideal) ((c : Thread nD τ).loc b))

theorem iblk0_0_apply (c : Dev nD) (t : Fin cfg0.N) (p : Fin 5000) (j : Fin 76) :
    (iblk0 V c 0 t : Vec Ideal S5000x76 .f32) (ix2 p j)
      = (V c (Pipeline.arrRef spec0 0) : Vec Ideal S800000x76 .f32) (ix2 ⟨5000 * t.val + p.val, row0_lt t p⟩ j) :=
  congrArg (V c (Pipeline.arrRef spec0 0)) (Shape.idx_ext₂ (emb0 0 t (ix2 p j) (0 : Fin 2)) (emb0 0 t (ix2 p j) (1 : Fin 2)))

theorem iblk0_1_apply (c : Dev nD) (t : Fin cfg0.N) (p : Fin 5000) (j : Fin 76) :
    (iblk0 V c 1 t : Vec Ideal S5000x76 .f32) (ix2 p j)
      = (V c (Pipeline.arrRef spec0 1) : Vec Ideal S800000x76 .f32) (ix2 ⟨5000 * t.val + p.val, row0_lt t p⟩ j) :=
  congrArg (V c (Pipeline.arrRef spec0 1)) (Shape.idx_ext₂ (emb0 1 t (ix2 p j) (0 : Fin 2)) (emb0 1 t (ix2 p j) (1 : Fin 2)))

theorem iblk0_2_whole (c : Dev nD) (t : Fin cfg0.N) :
    (iblk0 V c 2 t : Vec Ideal S64x64 .f32) = (V c (Pipeline.arrRef spec0 2) : Vec Ideal S64x64 .f32) :=
  funext fun y => at_eq (V c (Pipeline.arrRef spec0 2)) (emb0 2 t y)

theorem iblk0_3_whole (c : Dev nD) (t : Fin cfg0.N) :
    (iblk0 V c 3 t : Vec Ideal S64x64 .f32) = (V c (Pipeline.arrRef spec0 3) : Vec Ideal S64x64 .f32) :=
  funext fun y => at_eq (V c (Pipeline.arrRef spec0 3)) (emb0 3 t y)

theorem iblk0_4_whole (c : Dev nD) (t : Fin cfg0.N) :
    (iblk0 V c 4 t : Vec Ideal S16x64 .f32) = (V c (Pipeline.arrRef spec0 4) : Vec Ideal S16x64 .f32) :=
  funext fun y => at_eq (V c (Pipeline.arrRef spec0 4)) (emb0 4 t y)

theorem iblk0_5_whole (c : Dev nD) (t : Fin cfg0.N) :
    (iblk0 V c 5 t : Vec Ideal S64 .f32) = (V c (Pipeline.arrRef spec0 5) : Vec Ideal S64 .f32) :=
  funext fun y => at_eq (V c (Pipeline.arrRef spec0 5)) (emb0 5 t y)

theorem iblk0_6_whole (c : Dev nD) (t : Fin cfg0.N) :
    (iblk0 V c 6 t : Vec Ideal S64x64 .f32) = (V c (Pipeline.arrRef spec0 6) : Vec Ideal S64x64 .f32) :=
  funext fun y => at_eq (V c (Pipeline.arrRef spec0 6)) (emb0 6 t y)

theorem iblk0_7_whole (c : Dev nD) (t : Fin cfg0.N) :
    (iblk0 V c 7 t : Vec Ideal S64 .f32) = (V c (Pipeline.arrRef spec0 7) : Vec Ideal S64 .f32) :=
  funext fun y => at_eq (V c (Pipeline.arrRef spec0 7)) (emb0 7 t y)

theorem iblk0_8_whole (c : Dev nD) (t : Fin cfg0.N) :
    (iblk0 V c 8 t : Vec Ideal S64x64 .f32) = (V c (Pipeline.arrRef spec0 8) : Vec Ideal S64x64 .f32) :=
  funext fun y => at_eq (V c (Pipeline.arrRef spec0 8)) (emb0 8 t y)

theorem iblk0_9_whole (c : Dev nD) (t : Fin cfg0.N) :
    (iblk0 V c 9 t : Vec Ideal S64 .f32) = (V c (Pipeline.arrRef spec0 9) : Vec Ideal S64 .f32) :=
  funext fun y => at_eq (V c (Pipeline.arrRef spec0 9)) (emb0 9 t y)

theorem iblk0_10_whole (c : Dev nD) (t : Fin cfg0.N) :
    (iblk0 V c 10 t : Vec Ideal S64x1 .f32) = (V c (Pipeline.arrRef spec0 10) : Vec Ideal S64x1 .f32) :=
  funext fun y => at_eq (V c (Pipeline.arrRef spec0 10)) (emb0 10 t y)

theorem arrAt0_11 (c : Dev nD) (G : Vec Ideal S800000x77 .f32)
    (hpay : ∀ (t : Fin cfg0.N) (p : Fin 5000) (j : Fin 77),
      pay0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 p j)
        = G (ix2 ⟨5000 * t.val + p.val, row0_lt t p⟩ j)) :
    (dat0 V c).arrAt 11 cfg0.N = G := by
  refine (dat0 V c).arrAt_eq_of_cover 11 G (fun t _ => ?_) (fun i => ?_)
  · show (cfg0.win 11).cut (grid0.coords t) ((dat0 V c).after 11 t) = _
    rw [after0_11]
    unfold out0_11
    rw [View.canon_unit_zero hz2]
    funext y
    rw [View.read_apply]
    exact ((congrArg _ (eq_ix2 y)).trans (hpay t (y 0) (y 1))).trans (congrArg G
      (Shape.idx_ext₂ (emb0 11 t y (0 : Fin 2)) (emb0 11 t y (1 : Fin 2))).symm)
  · have hi : (i 0 : Nat) < 800000 := (i 0).isLt
    have hlt : (i 0 : Nat) / 5000 < cfg0.N := by rw [show cfg0.N = 160 from N_0]; omega
    exact ⟨⟨_, hlt⟩, flush0_11 _, mem_of_emb _ _ (Shape.idx_ext₂ (y := i)
      ((emb0 11 ⟨_, hlt⟩ (ix2 ⟨i 0 % 5000, Nat.mod_lt _ (by decide)⟩ (i 1)) (0 : Fin 2)).trans (Nat.div_add_mod _ _))
      (emb0 11 ⟨_, hlt⟩ (ix2 ⟨i 0 % 5000, Nat.mod_lt _ (by decide)⟩ (i 1)) (1 : Fin 2)))⟩

theorem arrAt0_12 (c : Dev nD) (G : Vec Ideal S800000x65 .f32)
    (hpay : ∀ (t : Fin cfg0.N) (p : Fin 5000) (j : Fin 65),
      pay0_12 (iblk0 V c 0 t) (iblk0 V c 1 t) (iblk0 V c 2 t) (iblk0 V c 3 t) (iblk0 V c 4 t) (iblk0 V c 5 t) (iblk0 V c 6 t) (iblk0 V c 7 t) (ix2 p j)
        = G (ix2 ⟨5000 * t.val + p.val, row0_lt t p⟩ j)) :
    (dat0 V c).arrAt 12 cfg0.N = G := by
  refine (dat0 V c).arrAt_eq_of_cover 12 G (fun t _ => ?_) (fun i => ?_)
  · show (cfg0.win 12).cut (grid0.coords t) ((dat0 V c).after 12 t) = _
    rw [after0_12]
    unfold out0_12
    rw [View.canon_unit_zero hz2]
    funext y
    rw [View.read_apply]
    exact ((congrArg _ (eq_ix2 y)).trans (hpay t (y 0) (y 1))).trans (congrArg G
      (Shape.idx_ext₂ (emb0 12 t y (0 : Fin 2)) (emb0 12 t y (1 : Fin 2))).symm)
  · have hi : (i 0 : Nat) < 800000 := (i 0).isLt
    have hlt : (i 0 : Nat) / 5000 < cfg0.N := by rw [show cfg0.N = 160 from N_0]; omega
    exact ⟨⟨_, hlt⟩, flush0_12 _, mem_of_emb _ _ (Shape.idx_ext₂ (y := i)
      ((emb0 12 ⟨_, hlt⟩ (ix2 ⟨i 0 % 5000, Nat.mod_lt _ (by decide)⟩ (i 1)) (0 : Fin 2)).trans (Nat.div_add_mod _ _))
      (emb0 12 ⟨_, hlt⟩ (ix2 ⟨i 0 % 5000, Nat.mod_lt _ (by decide)⟩ (i 1)) (1 : Fin 2)))⟩

end Region0

section Region1
variable (V : (c : Dev nD) → (b : Ref sig .tc) → Buf (Elt Ideal) ((c : Thread nD τ).loc b))

theorem iblk1_0_apply (c : Dev nD) (t : Fin cfg1.N) (p : Fin 5000) (j : Fin 256) :
    (iblk1 V c 0 t : Vec Ideal S5000x256 .f32) (ix2 p j)
      = (V c (Pipeline.arrRef spec1 0) : Vec Ideal S50000x256 .f32) (ix2 ⟨5000 * t.val + p.val, row1_lt t p⟩ j) :=
  congrArg (V c (Pipeline.arrRef spec1 0)) (Shape.idx_ext₂ (emb1 0 t (ix2 p j) (0 : Fin 2)) (emb1 0 t (ix2 p j) (1 : Fin 2)))

theorem iblk1_1_apply (c : Dev nD) (t : Fin cfg1.N) (p : Fin 5000) (j : Fin 24) :
    (iblk1 V c 1 t : Vec Ideal S5000x24 .f32) (ix2 p j)
      = (V c (Pipeline.arrRef spec1 1) : Vec Ideal S50000x24 .f32) (ix2 ⟨5000 * t.val + p.val, row1_lt t p⟩ j) :=
  congrArg (V c (Pipeline.arrRef spec1 1)) (Shape.idx_ext₂ (emb1 1 t (ix2 p j) (0 : Fin 2)) (emb1 1 t (ix2 p j) (1 : Fin 2)))

theorem iblk1_2_whole (c : Dev nD) (t : Fin cfg1.N) :
    (iblk1 V c 2 t : Vec Ideal S256x64 .f32) = (V c (Pipeline.arrRef spec1 2) : Vec Ideal S256x64 .f32) :=
  funext fun y => at_eq (V c (Pipeline.arrRef spec1 2)) (emb1 2 t y)

theorem iblk1_3_whole (c : Dev nD) (t : Fin cfg1.N) :
    (iblk1 V c 3 t : Vec Ideal S64 .f32) = (V c (Pipeline.arrRef spec1 3) : Vec Ideal S64 .f32) :=
  funext fun y => at_eq (V c (Pipeline.arrRef spec1 3)) (emb1 3 t y)

theorem iblk1_4_whole (c : Dev nD) (t : Fin cfg1.N) :
    (iblk1 V c 4 t : Vec Ideal S64x64 .f32) = (V c (Pipeline.arrRef spec1 4) : Vec Ideal S64x64 .f32) :=
  funext fun y => at_eq (V c (Pipeline.arrRef spec1 4)) (emb1 4 t y)

theorem iblk1_5_whole (c : Dev nD) (t : Fin cfg1.N) :
    (iblk1 V c 5 t : Vec Ideal S64 .f32) = (V c (Pipeline.arrRef spec1 5) : Vec Ideal S64 .f32) :=
  funext fun y => at_eq (V c (Pipeline.arrRef spec1 5)) (emb1 5 t y)

theorem iblk1_6_whole (c : Dev nD) (t : Fin cfg1.N) :
    (iblk1 V c 6 t : Vec Ideal S64x64 .f32) = (V c (Pipeline.arrRef spec1 6) : Vec Ideal S64x64 .f32) :=
  funext fun y => at_eq (V c (Pipeline.arrRef spec1 6)) (emb1 6 t y)

theorem iblk1_7_whole (c : Dev nD) (t : Fin cfg1.N) :
    (iblk1 V c 7 t : Vec Ideal S64 .f32) = (V c (Pipeline.arrRef spec1 7) : Vec Ideal S64 .f32) :=
  funext fun y => at_eq (V c (Pipeline.arrRef spec1 7)) (emb1 7 t y)

theorem iblk1_8_whole (c : Dev nD) (t : Fin cfg1.N) :
    (iblk1 V c 8 t : Vec Ideal S64x1 .f32) = (V c (Pipeline.arrRef spec1 8) : Vec Ideal S64x1 .f32) :=
  funext fun y => at_eq (V c (Pipeline.arrRef spec1 8)) (emb1 8 t y)

theorem iblk1_9_whole (c : Dev nD) (t : Fin cfg1.N) :
    (iblk1 V c 9 t : Vec Ideal S1 .f32) = (V c (Pipeline.arrRef spec1 9) : Vec Ideal S1 .f32) :=
  funext fun y => at_eq (V c (Pipeline.arrRef spec1 9)) (emb1 9 t y)

theorem arrAt1_10 (c : Dev nD) (G : Vec Ideal S50000x82 .f32)
    (hpay : ∀ (t : Fin cfg1.N) (p : Fin 5000) (j : Fin 82),
      pay1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (ix2 p j)
        = G (ix2 ⟨5000 * t.val + p.val, row1_lt t p⟩ j)) :
    (dat1 V c).arrAt 10 cfg1.N = G := by
  refine (dat1 V c).arrAt_eq_of_cover 10 G (fun t _ => ?_) (fun i => ?_)
  · show (cfg1.win 10).cut (grid1.coords t) ((dat1 V c).after 10 t) = _
    rw [after1_10]
    unfold out1_10
    rw [View.canon_unit_zero hz2]
    funext y
    rw [View.read_apply]
    exact ((congrArg _ (eq_ix2 y)).trans (hpay t (y 0) (y 1))).trans (congrArg G
      (Shape.idx_ext₂ (emb1 10 t y (0 : Fin 2)) (emb1 10 t y (1 : Fin 2))).symm)
  · have hi : (i 0 : Nat) < 50000 := (i 0).isLt
    have hlt : (i 0 : Nat) / 5000 < cfg1.N := by rw [show cfg1.N = 10 from N_1]; omega
    exact ⟨⟨_, hlt⟩, flush1_10 _, mem_of_emb _ _ (Shape.idx_ext₂ (y := i)
      ((emb1 10 ⟨_, hlt⟩ (ix2 ⟨i 0 % 5000, Nat.mod_lt _ (by decide)⟩ (i 1)) (0 : Fin 2)).trans (Nat.div_add_mod _ _))
      (emb1 10 ⟨_, hlt⟩ (ix2 ⟨i 0 % 5000, Nat.mod_lt _ (by decide)⟩ (i 1)) (1 : Fin 2)))⟩

end Region1

end Cert.KernelIdeal.Hand

end
-- ==== Proof.LibRowDims.lean ====
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

theorem plain_lhsIdx_row {M K N : Nat} (p : Fin M) (q : Fin N) (k : (DotDims.plain M K N).contr.Idx) :
    ((DotDims.plain M K N).lhsIdx (ix2 p q) k 0).val = p.val := rfl

theorem plain_rhsIdx_col {M K N : Nat} (p : Fin M) (q : Fin N) (k : (DotDims.plain M K N).contr.Idx) :
    ((DotDims.plain M K N).rhsIdx (ix2 p q) k 1).val = q.val := rfl

theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

def clampRow (N : Nat) (hN : 0 < N) {w : Nat} (v : BitVec w) : Fin N := ⟨min v.toInt.toNat (N - 1), by omega⟩

theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  rw [Finset.sum_filter, sum_idx2]
  refine Finset.sum_congr rfl fun r _ => ?_
  simp only [rowScatter_resultIdx?_eq_some_iff]
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.KIEdgeMathA.lean ====
import proofs.«412281_j28432683499987_4_alg».proof.Proof.KIPay
import proofs.«412281_j28432683499987_4_alg».proof.Proof.Spec
import proofs.«412281_j28432683499987_4_alg».proof.Proof.LibRowDims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.KernelIdeal.Gen GmnSpec

namespace EdgeA

theorem ld_rW64x64 (x : Vec Ideal S64x64 .f32) : View.ld x rW64x64 = x := View.ld_unit_zero (by decide) _ x
theorem ld_rW16x64 (x : Vec Ideal S16x64 .f32) : View.ld x rW16x64 = x := View.ld_unit_zero (by decide) _ x

/-- Reading the columns from o on: entry (p, q) of the result is entry (p, o + q) of the block. -/
theorem ld_cols {R C c : Nat} (o : Nat) (x : Vec Ideal ⟨2, ![R, C]⟩ .f32)
    (inb : ∀ a, (![0, o] : Fin 2 → Nat) a + (⟨2, ![R, c]⟩ : Shape).size a ≤ (⟨2, ![R, C]⟩ : Shape).size a)
    (p : Fin R) (q : Fin c) (r : Fin C) (hr : r.val = o + q.val) :
    View.ld x (Rect.unit (s := ⟨2, ![R, C]⟩) ![0, o] (⟨2, ![R, c]⟩ : Shape).size inb) (ix2 p q) = x (ix2 p r) := by
  show x _ = x _
  congr 1; funext a; refine Fin.ext ?_
  match a with
  | ⟨0, _⟩ => show 0 + 1 * p.val = p.val; omega
  | ⟨1, _⟩ => show o + 1 * q.val = r.val; omega

theorem dot64_eq : dot_S5000x64_S64x64_S5000x64_1_0_0_1_n_n = DotDims.plain 5000 64 64 := rfl
theorem dot16_eq : dot_S5000x16_S16x64_S5000x64_1_0_0_1_n_n = DotDims.plain 5000 16 64 := rfl

theorem mm {K N : Nat} (a : FVec Ideal ⟨2, ![5000, K]⟩ .f32) (w : FVec Ideal ⟨2, ![K, N]⟩ .f32) (p : Fin 5000) (j : Fin N) :
    matmul (φ₁ := .f32) (φ₂ := .f32) (DotDims.plain 5000 K N) none a w (constant ⟨2, ![5000, N]⟩ .f32 0x00000000#32) (ix2 p j)
      = ∑ k : Fin K, a (ix2 p k) * w (ix2 k j) :=
  RowDims.matmul_plain_zero_apply none a w p j

/-- Summing along the second axis and keeping one column: entry (p, ·) of the result is the sum of row p. -/
theorem laneSum_apply {n : Nat} (v : FVec Ideal ⟨2, ![5000, n]⟩ .f32) (h : Shape.Reduces ⟨2, ![5000, n]⟩ [1] S5000)
    (hφ : FKind.Formats .f32) (hacc : (0x00000000#32 : BitVec 32) = FKind.add.neutral .f32 hφ)
    (h2 : S5000.ShapeCasts S5000x1) (p : Fin 5000) (u : Fin 1) :
    shapeCast S5000x1 (multiReduction .add [1] S5000 v 0x00000000#32 h hφ hacc) h2 (ix2 p u) = ∑ k : Fin n, v (ix2 p k) := by
  have hu : u.val = 0 := by omega
  rw [shapeCast_apply _ h2 (ix2 p u) (ix1 p) (by
    rw [Shape.rowMajor_val_two, Shape.rowMajor_val_one]
    show p.val = p.val * 1 + u.val
    omega)]
  refine (Ideal.multiReduction_add_single v _ h hφ hacc (ix1 p)).trans ?_
  refine Finset.sum_congr rfl fun k _ => congrArg v (funext fun c => Fin.ext ?_)
  match c with
  | ⟨0, _⟩ => rfl
  | ⟨1, _⟩ => rfl

/-- Row p of the Gram block divided by the larger of its Euclidean norm and ε. -/
theorem radial_apply (I : Inputs) (e : Fin 800000) (p : Fin 5000) (G : FVec Ideal S5000x16 .f32)
    (hG : ∀ i : Fin 16, G (ix2 p i) = gramFlat I e i) (i : Fin 16) :
    divf G (broadcastTo S5000x16 (maximumf (sqrt (shapeCast S5000x1
        (multiReduction .add [1] S5000 (mulf G G) 0x00000000#32 reduces_S5000x16_S5000 (.inl rfl) rfl) shapeCasts_S5000_S5000x1))
        (broadcast S5000x1 (Scalar.ofBits (F := Ideal) .f32 0x2B8CBCCC#32))) broadcasts_S5000x1_S5000x16) (ix2 p i)
      = radial I e i := by
  rw [divf_apply, hG, broadcastTo_apply _ broadcasts_S5000x1_S5000x16 (ix2 p i) (ix2 p (0 : Fin 1)) fun a => by
    match a with
    | ⟨0, _⟩ => rfl
    | ⟨1, _⟩ => rfl]
  unfold radial nrm
  exact congrArg (fun s => Ideal.div (gramFlat I e i) (max (Ideal.sqrt s) epsE))
    ((laneSum_apply (n := 16) (mulf G G) reduces_S5000x16_S5000 (.inl rfl) rfl shapeCasts_S5000_S5000x1 p 0).trans
      (Finset.sum_congr rfl fun k _ => by rw [mulf_apply, hG]))

theorem hz_lo (I : Inputs) (n : Fin 50000) (k : Fin 64) : hz I n ⟨k.val, by omega⟩ = I.h n k := by
  unfold hz
  exact dif_pos (show (⟨k.val, by omega⟩ : Fin 76).val < 64 from k.isLt)

theorem ein_lo (I : Inputs) (e : Fin 800000) (k : Fin 64) :
    ein I e (Fin.castAdd 16 (Fin.castAdd 64 k)) = I.h (I.row e) k := by
  unfold ein
  exact dif_pos (show (Fin.castAdd 16 (Fin.castAdd 64 k)).val < 64 from k.isLt)

theorem ein_mid (I : Inputs) (e : Fin 800000) (k : Fin 64) :
    ein I e (Fin.castAdd 16 (Fin.natAdd 64 k)) = I.h (I.col e) k := by
  unfold ein
  have hv : (Fin.castAdd 16 (Fin.natAdd 64 k)).val = 64 + k.val := rfl
  have h1 : ¬ (Fin.castAdd 16 (Fin.natAdd 64 k)).val < 64 := by rw [hv]; omega
  have h2 : (Fin.castAdd 16 (Fin.natAdd 64 k)).val < 128 := by rw [hv]; omega
  rw [dif_neg h1, dif_pos h2]
  exact congrArg (I.h (I.col e)) (Fin.ext (by show (Fin.castAdd 16 (Fin.natAdd 64 k)).val - 64 = k.val; rw [hv]; omega))

theorem ein_hi (I : Inputs) (e : Fin 800000) (k : Fin 16) :
    ein I e (Fin.natAdd 128 k) = radial I e k := by
  unfold ein
  have hv : (Fin.natAdd 128 k).val = 128 + k.val := rfl
  have h1 : ¬ (Fin.natAdd 128 k).val < 64 := by rw [hv]; omega
  have h2 : ¬ (Fin.natAdd 128 k).val < 128 := by rw [hv]; omega
  rw [dif_neg h1, dif_neg h2]
  exact congrArg (radial I e) (Fin.ext (by show (Fin.natAdd 128 k).val - 128 = k.val; rw [hv]; omega))

end EdgeA

theorem cdiff_apply (I : Inputs) (e : Fin 800000) (p : Fin 5000) (x0 x1 : Vec Ideal S5000x76 .f32)
    (h0 : ∀ j : Fin 76, x0 (ix2 p j) = hz I (I.row e) j) (h1 : ∀ j : Fin 76, x1 (ix2 p j) = hz I (I.col e) j) (q : Fin 12) :
    k0_pay7 (View.ld x0 rZ76) (View.ld x1 rZ76) (ix2 p q) = cdiff I e ⟨q.val / 3, by omega⟩ ⟨q.val % 3, by omega⟩ := by
  unfold k0_pay7
  rw [shapeCast_self, shapeCast_self, subf_apply, EdgeA.ld_cols 64 x0 _ p q ⟨q.val + 64, by omega⟩ (Nat.add_comm _ _),
    EdgeA.ld_cols 64 x1 _ p q ⟨q.val + 64, by omega⟩ (Nat.add_comm _ _), h0, h1]
  unfold hz cdiff
  rw [dif_neg (by show ¬ q.val + 64 < 64; omega), dif_neg (by show ¬ q.val + 64 < 64; omega)]
  simp only [Nat.add_sub_cancel]

namespace EdgeA

/-- With o = 3a, columns o‥o+2 of the difference block are channel a. -/
theorem chan_apply (I : Inputs) (e : Fin 800000) (p : Fin 5000) (x0 x1 : Vec Ideal S5000x76 .f32)
    (h0 : ∀ j : Fin 76, x0 (ix2 p j) = hz I (I.row e) j) (h1 : ∀ j : Fin 76, x1 (ix2 p j) = hz I (I.col e) j)
    (o : Nat) (a : Fin 4) (ho : o = 3 * a.val) (hs : S5000x12.Slices ![0, o] S5000x3) (t : Fin 3) :
    extractStridedSlice S5000x3 ![0, o] (k0_pay7 (View.ld x0 rZ76) (View.ld x1 rZ76)) hs (ix2 p t) = cdiff I e a t := by
  rw [slice2_axis1_apply o _ hs p t ⟨o + t.val, by omega⟩ rfl, cdiff_apply I e p x0 x1 h0 h1]
  exact congrArg₂ (cdiff I e) (Fin.ext (by show (o + t.val) / 3 = a.val; omega)) (Fin.ext (by show (o + t.val) % 3 = t.val; omega))

/-- The sixteen inner products of four three-column channels, each kept as one column. -/
def gcol (C : Fin 4 → FVec Ideal S5000x3 .f32) (i : Fin 16) : FVec Ideal S5000x1 .f32 :=
  shapeCast S5000x1 (multiReduction .add [1] S5000 (mulf (C ⟨i.val / 4, by omega⟩) (C ⟨i.val % 4, by omega⟩)) 0x00000000#32
    reduces_S5000x3_S5000 (.inl rfl) rfl) shapeCasts_S5000_S5000x1

theorem gcol_apply (I : Inputs) (e : Fin 800000) (p : Fin 5000) (C : Fin 4 → FVec Ideal S5000x3 .f32)
    (hC : ∀ (a : Fin 4) (t : Fin 3), C a (ix2 p t) = cdiff I e a t) (i : Fin 16) (u : Fin 1) :
    gcol C i (ix2 p u) = gramFlat I e i := by
  unfold gcol gramFlat gram
  exact (laneSum_apply (n := 3) _ reduces_S5000x3_S5000 (.inl rfl) rfl shapeCasts_S5000_S5000x1 p u).trans
    (Finset.sum_congr rfl fun t _ => by rw [mulf_apply, hC, hC])

end EdgeA

/-- The 144-term sum splits as 64 + 64 + 16: receiver features, sender features, normalised Gram entries. -/
theorem edgePre_apply (I : Inputs) (e : Fin 800000) (p : Fin 5000) (x0 x1 : Vec Ideal S5000x76 .f32)
    (x2 x3 : Vec Ideal S64x64 .f32) (x4 : Vec Ideal S16x64 .f32)
    (h0 : ∀ j : Fin 76, x0 (ix2 p j) = hz I (I.row e) j) (h1 : ∀ j : Fin 76, x1 (ix2 p j) = hz I (I.col e) j)
    (h2 : ∀ k j : Fin 64, x2 (ix2 k j) = I.We1 ⟨k.val, by omega⟩ j)
    (h3 : ∀ k j : Fin 64, x3 (ix2 k j) = I.We1 ⟨k.val + 64, by omega⟩ j)
    (h4 : ∀ (k : Fin 16) (j : Fin 64), x4 (ix2 k j) = I.We1 ⟨k.val + 128, by omega⟩ j) (j : Fin 64) :
    edgePre x0 x1 x2 x3 x4 (ix2 p j) = ∑ k : Fin 144, ein I e k * I.We1 k j := by
  let C : Fin 4 → FVec Ideal S5000x3 .f32 := ![k0_pay8 (View.ld x0 rZ76) (View.ld x1 rZ76), k0_pay9 (View.ld x0 rZ76) (View.ld x1 rZ76),
    k0_pay10 (View.ld x0 rZ76) (View.ld x1 rZ76), k0_pay11 (View.ld x0 rZ76) (View.ld x1 rZ76)]
  have hC : ∀ (a : Fin 4) (t : Fin 3), C a (ix2 p t) = cdiff I e a t := fun a t => by
    match a with
    | ⟨0, _⟩ => exact EdgeA.chan_apply I e p x0 x1 h0 h1 0 0 rfl slices_S5000x12_o0_0_S5000x3 t
    | ⟨1, _⟩ => exact EdgeA.chan_apply I e p x0 x1 h0 h1 3 1 rfl slices_S5000x12_o0_3_S5000x3 t
    | ⟨2, _⟩ => exact EdgeA.chan_apply I e p x0 x1 h0 h1 6 2 rfl slices_S5000x12_o0_6_S5000x3 t
    | ⟨3, _⟩ => exact EdgeA.chan_apply I e p x0 x1 h0 h1 9 3 rfl slices_S5000x12_o0_9_S5000x3 t
  unfold edgePre k0_pay22 k0_pay5 k0_pay6 k0_pay12 k0_pay13 k0_pay14 k0_pay15 k0_pay16 k0_pay17 k0_pay18 k0_pay19 k0_pay20 k0_pay21
  simp only [shapeCast_self]
  rw [EdgeA.ld_rW64x64, EdgeA.ld_rW64x64, EdgeA.ld_rW16x64, EdgeA.dot64_eq, EdgeA.dot16_eq, addf_apply, addf_apply, EdgeA.mm,
    EdgeA.mm, EdgeA.mm]
  have s1 := Fin.sum_univ_add (a := 128) (b := 16) (fun k : Fin (128 + 16) => ein I e k * I.We1 k j)
  have s2 := Fin.sum_univ_add (a := 64) (b := 64)
    (fun k : Fin (64 + 64) => ein I e (Fin.castAdd 16 k) * I.We1 (Fin.castAdd 16 k) j)
  refine Eq.trans ?_ (s1.trans (congrArg (· + ∑ k : Fin 16, ein I e (Fin.natAdd 128 k) * I.We1 (Fin.natAdd 128 k) j) s2)).symm
  refine congrArg₂ HAdd.hAdd (congrArg₂ HAdd.hAdd ?_ ?_) ?_
  · refine Finset.sum_congr rfl fun k _ => congrArg₂ HMul.hMul ?_ (h2 k j)
    rw [EdgeA.ld_cols 0 x0 _ p k ⟨k.val, by omega⟩ (Nat.zero_add _).symm, h0]
    exact (EdgeA.hz_lo I (I.row e) k).trans (EdgeA.ein_lo I e k).symm
  · refine Finset.sum_congr rfl fun k _ => congrArg₂ HMul.hMul ?_
      ((h3 k j).trans (congrArg (fun q => I.We1 q j) (Fin.ext (Nat.add_comm k.val 64))))
    rw [EdgeA.ld_cols 0 x1 _ p k ⟨k.val, by omega⟩ (Nat.zero_add _).symm, h1]
    exact (EdgeA.hz_lo I (I.col e) k).trans (EdgeA.ein_mid I e k).symm
  · refine Finset.sum_congr rfl fun k _ => congrArg₂ HMul.hMul ?_
      ((h4 k j).trans (congrArg (fun q => I.We1 q j) (Fin.ext (Nat.add_comm k.val 128))))
    refine (EdgeA.radial_apply I e p _ (fun i => ?_) k).trans (EdgeA.ein_hi I e k).symm
    exact (concatenate_ofFn_unit_apply (t := S5000x16) (s₁ := S5000x1) 1 (EdgeA.gcol C) _ rfl rfl (ix2 p i) i rfl (ix2 p (0 : Fin 1))
      fun b hb => by
        match b with
        | ⟨0, _⟩ => rfl
        | ⟨1, _⟩ => exact absurd rfl hb).trans (EdgeA.gcol_apply I e p C hC i 0)

end Cert.KernelIdeal.Hand

end
-- ==== Proof.KIEdgeMathB.lean ====
import proofs.«412281_j28432683499987_4_alg».proof.Proof.KIPay
import proofs.«412281_j28432683499987_4_alg».proof.Proof.Spec
import proofs.«412281_j28432683499987_4_alg».proof.Proof.LibRowDims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.KernelIdeal.Gen GmnSpec

namespace EdgeB

theorem ld_rB64 (x : Vec Ideal S64 .f32) : View.ld x rB64 = x := View.ld_unit_zero (by decide) _ x
theorem ld_rW64x64 (x : Vec Ideal S64x64 .f32) : View.ld x rW64x64 = x := View.ld_unit_zero (by decide) _ x
theorem ld_rW64x1 (x : Vec Ideal S64x1 .f32) : View.ld x rW64x1 = x := View.ld_unit_zero (by decide) _ x

theorem relu {s : Shape} (v : FVec Ideal s .f32) (i : s.Idx) :
    maximumf v (broadcast s (Scalar.ofBits .f32 0x00000000#32)) i = max (v i) 0 :=
  congrArg (max (v i)) Ideal.ofBits_zero_f32

theorem dot64_eq : dot_S5000x64_S64x64_S5000x64_1_0_0_1_n_n = DotDims.plain 5000 64 64 := rfl

/-- An affine layer entrywise: row p of x against column q of w, plus b at q. -/
theorem dense {K N : Nat} (x : FVec Ideal ⟨2, ![5000, K]⟩ .f32) (w : Vec Ideal ⟨2, ![K, N]⟩ .f32) (b : Vec Ideal ⟨1, ![N]⟩ .f32)
    (h1 : (⟨1, ![N]⟩ : Shape).ShapeCasts ⟨2, ![1, N]⟩) (h2 : (⟨2, ![1, N]⟩ : Shape).Broadcasts ⟨2, ![5000, N]⟩) (p : Fin 5000) (q : Fin N) :
    addf (matmul (φ₁ := .f32) (φ₂ := .f32) (DotDims.plain 5000 K N) none x w (constant ⟨2, ![5000, N]⟩ .f32 0x00000000#32))
        (broadcastTo ⟨2, ![5000, N]⟩ (shapeCast ⟨2, ![1, N]⟩ b h1) h2) (ix2 p q)
      = (∑ k : Fin K, x (ix2 p k) * w (ix2 k q)) + b (ix1 q) := by
  rw [addf_apply, broadcastTo_1b_ab_apply, shapeCast_a_1a_apply]
  exact congrArg (· + b (ix1 q)) (RowDims.matmul_plain_zero_apply none x w p q)

/-- In a side-by-side join, column pre + q is column q of the piece whose columns start at pre. -/
theorem cat_cols {R C c : Nat} (xs : List ((s : Shape) × (s.Idx → EReal))) (h : Shape.Concatenates (xs.map (·.1)) ⟨2, ![R, C]⟩ 1)
    (k : Nat) (x₁ : (⟨2, ![R, c]⟩ : Shape).Idx → EReal) (hxk : xs[k]? = some ⟨⟨2, ![R, c]⟩, x₁⟩) (pre : Nat)
    (hpre : (((xs.take k).map (·.1)).map fun s => if h : s.rank = 2 then s.size ((1 : Fin 2).cast h.symm) else 0).sum = pre)
    (p : Fin R) (j : Fin C) (q : Fin c) (hq : pre + q.val = j.val) :
    concatenate ⟨2, ![R, C]⟩ 1 xs h (ix2 p j) = x₁ (ix2 p q) := by
  obtain ⟨hk, e⟩ := List.getElem?_eq_some_iff.mp hxk
  exact concatenate_apply_piece 1 xs h _ k hk _ x₁ e rfl pre hpre (ix2 p q)
    (fun b hb => by match b with | ⟨0, _⟩ => rfl | ⟨1, _⟩ => exact absurd rfl hb) hq

/-- Two affine layers, each followed by the maximum with zero, take the first layer's sums to the edge feature. -/
theorem ef_apply (I : Inputs) (e : Fin 800000) (p : Fin 5000) (pre : FVec Ideal S5000x64 .f32)
    (x5 : Vec Ideal S64 .f32) (x6 : Vec Ideal S64x64 .f32) (x7 : Vec Ideal S64 .f32)
    (hpre : ∀ j : Fin 64, pre (ix2 p j) = ∑ k : Fin 144, ein I e k * I.We1 k j)
    (h5 : ∀ j : Fin 64, x5 (ix1 j) = I.be1 j) (h6 : ∀ k j : Fin 64, x6 (ix2 k j) = I.We2 k j)
    (h7 : ∀ j : Fin 64, x7 (ix1 j) = I.be2 j) (j : Fin 64) :
    k0_pay1 pre (k0_pay23 (View.ld x5 rB64)) (View.ld x6 rW64x64) (View.ld x7 rB64) (ix2 p j) = ef I e j := by
  rw [ld_rB64, ld_rW64x64, ld_rB64]
  unfold k0_pay1 k0_pay23 ef GmnSpec.h1
  rw [dot64_eq, relu, dense, h7]
  refine congrArg (fun s => max (s + I.be2 j) 0) (Finset.sum_congr rfl fun k _ => ?_)
  rw [relu, addf_apply, broadcastTo_1b_ab_apply, shapeCast_a_1a_apply, hpre, h5, h6]

end EdgeB

open EdgeB

/-- Columns 0‥11 are the differences times the scale, 12‥75 the edge feature, column 76 is one. -/
theorem edge_store11_apply (x0 x1 : Vec Ideal S5000x76 .f32) (x2 x3 : Vec Ideal S64x64 .f32) (x4 : Vec Ideal S16x64 .f32)
    (x5 : Vec Ideal S64 .f32) (x6 : Vec Ideal S64x64 .f32) (x7 : Vec Ideal S64 .f32) (x8 : Vec Ideal S64x64 .f32)
    (x9 : Vec Ideal S64 .f32) (x10 : Vec Ideal S64x1 .f32) (I : Inputs) (e : Fin 800000) (p : Fin 5000)
    (hcd : ∀ q : Fin 12, k0_pay7 (View.ld x0 rZ76) (View.ld x1 rZ76) (ix2 p q)
      = cdiff I e ⟨q.val / 3, by omega⟩ ⟨q.val % 3, by omega⟩)
    (hpre : ∀ j : Fin 64, edgePre x0 x1 x2 x3 x4 (ix2 p j) = ∑ k : Fin 144, ein I e k * I.We1 k j)
    (h5 : ∀ j : Fin 64, x5 (ix1 j) = I.be1 j) (h6 : ∀ k j : Fin 64, x6 (ix2 k j) = I.We2 k j)
    (h7 : ∀ j : Fin 64, x7 (ix1 j) = I.be2 j) (h8 : ∀ k j : Fin 64, x8 (ix2 k j) = I.Wc1 k j)
    (h9 : ∀ j : Fin 64, x9 (ix1 j) = I.bc1 j) (h10 : ∀ k : Fin 64, x10 (ix2 k 0) = I.Wc2 k) (j : Fin 77) :
    pay0_11 x0 x1 x2 x3 x4 x5 x6 x7 x8 x9 x10 (ix2 p j) = prow I e j := by
  have EF := ef_apply I e p _ x5 x6 x7 hpre h5 h6 h7
  unfold pay0_11 k0_pay3 prow
  rw [ld_rW64x64 x8, ld_rB64 x9, ld_rW64x1]
  by_cases c1 : j.val < 12
  · rw [dif_pos c1]
    refine (cat_cols _ _ 0 _ rfl 0 rfl p j ⟨j.val, c1⟩ (Nat.zero_add _)).trans ?_
    unfold GmnSpec.trans phi hcv
    rw [mulf_apply, hcd, broadcastTo_apply _ broadcasts_S5000x1_S5000x12 (ix2 p _) (ix2 p (0 : Fin 1)) fun a => by
      match a with
      | ⟨0, _⟩ => rfl
      | ⟨1, _⟩ => rfl]
    refine congrArg (_ * ·) ((RowDims.matmul_plain_zero_apply none _ x10 p 0).trans (Finset.sum_congr rfl fun k _ => ?_))
    rw [dot64_eq, relu, dense, h9, h10]
    exact congrArg (fun s => max (s + I.bc1 k) 0 * I.Wc2 k) (Finset.sum_congr rfl fun k' _ => by rw [EF, h8])
  rw [dif_neg c1]
  by_cases c2 : j.val < 76
  · rw [dif_pos c2]
    exact (cat_cols _ _ 1 _ rfl 12 rfl p j ⟨j.val - 12, by omega⟩ (by show 12 + (j.val - 12) = j.val; omega)).trans (EF _)
  · rw [dif_neg c2]
    exact (cat_cols _ _ 2 _ rfl 76 rfl p j 0 (by show 76 + 0 = j.val; have := j.isLt; omega)).trans rfl

/-- Columns 0‥63 are the edge feature, column 64 is one. -/
theorem edge_store12_apply (x0 x1 : Vec Ideal S5000x76 .f32) (x2 x3 : Vec Ideal S64x64 .f32) (x4 : Vec Ideal S16x64 .f32)
    (x5 : Vec Ideal S64 .f32) (x6 : Vec Ideal S64x64 .f32) (x7 : Vec Ideal S64 .f32) (I : Inputs) (e : Fin 800000)
    (p : Fin 5000)
    (hpre : ∀ j : Fin 64, edgePre x0 x1 x2 x3 x4 (ix2 p j) = ∑ k : Fin 144, ein I e k * I.We1 k j)
    (h5 : ∀ j : Fin 64, x5 (ix1 j) = I.be1 j) (h6 : ∀ k j : Fin 64, x6 (ix2 k j) = I.We2 k j)
    (h7 : ∀ j : Fin 64, x7 (ix1 j) = I.be2 j) (j : Fin 65) :
    pay0_12 x0 x1 x2 x3 x4 x5 x6 x7 (ix2 p j) = pcol I e j := by
  unfold pay0_12 k0_pay4 pcol
  by_cases c : j.val < 64
  · rw [dif_pos c]
    exact (cat_cols _ _ 0 _ rfl 0 rfl p j ⟨j.val, c⟩ (Nat.zero_add _)).trans (ef_apply I e p _ x5 x6 x7 hpre h5 h6 h7 _)
  · rw [dif_neg c]
    exact (cat_cols _ _ 1 _ rfl 64 rfl p j 0 (by show 64 + 0 = j.val; have := j.isLt; omega)).trans rfl

end Cert.KernelIdeal.Hand
end
-- ==== Proof.KINodeMath.lean ====
import proofs.«412281_j28432683499987_4_alg».proof.Proof.KIPay
import proofs.«412281_j28432683499987_4_alg».proof.Proof.Spec
import proofs.«412281_j28432683499987_4_alg».proof.Proof.LibRowDims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.KernelIdeal.Gen GmnSpec

namespace NodeM

theorem ld_rN256 (x : Vec Ideal S5000x256 .f32) : View.ld x rN256 = x := View.ld_unit_zero (by decide) _ x
theorem ld_rW256x64 (x : Vec Ideal S256x64 .f32) : View.ld x rW256x64 = x := View.ld_unit_zero (by decide) _ x
theorem ld_rB64 (x : Vec Ideal S64 .f32) : View.ld x rB64 = x := View.ld_unit_zero (by decide) _ x
theorem ld_rW64x64 (x : Vec Ideal S64x64 .f32) : View.ld x rW64x64 = x := View.ld_unit_zero (by decide) _ x
theorem ld_rW64x1 (x : Vec Ideal S64x1 .f32) : View.ld x rW64x1 = x := View.ld_unit_zero (by decide) _ x
theorem ld_rB1 (x : Vec Ideal S1 .f32) : View.ld x rB1 = x := View.ld_unit_zero (by decide) _ x

/-- Reading the columns from o on: entry (p, q) of the result is entry (p, o + q) of the block. -/
theorem ld_cols {R C c : Nat} (o : Nat) (x : Vec Ideal ⟨2, ![R, C]⟩ .f32)
    (inb : ∀ a, (![0, o] : Fin 2 → Nat) a + (⟨2, ![R, c]⟩ : Shape).size a ≤ (⟨2, ![R, C]⟩ : Shape).size a)
    (p : Fin R) (q : Fin c) (r : Fin C) (hr : r.val = o + q.val) :
    View.ld x (Rect.unit (s := ⟨2, ![R, C]⟩) ![0, o] (⟨2, ![R, c]⟩ : Shape).size inb) (ix2 p q) = x (ix2 p r) := by
  show x _ = x _
  congr 1; funext a; refine Fin.ext ?_
  match a with
  | ⟨0, _⟩ => show 0 + 1 * p.val = p.val; omega
  | ⟨1, _⟩ => show o + 1 * q.val = r.val; omega

theorem relu {s : Shape} (v : FVec Ideal s .f32) (i : s.Idx) :
    maximumf v (broadcast s (Scalar.ofBits .f32 0x00000000#32)) i = max (v i) 0 :=
  congrArg (max (v i)) Ideal.ofBits_zero_f32

theorem dot256_eq : dot_S5000x256_S256x64_S5000x64_1_0_0_1_n_n = DotDims.plain 5000 256 64 := rfl
theorem dot64_eq : dot_S5000x64_S64x64_S5000x64_1_0_0_1_n_n = DotDims.plain 5000 64 64 := rfl
theorem dot1_eq : dot_S5000x64_S64x1_S5000x1_1_0_0_1_n_n = DotDims.plain 5000 64 1 := rfl

/-- An affine layer entrywise: row p of x against column q of w, plus b at q. -/
theorem dense {K N : Nat} (x : FVec Ideal ⟨2, ![5000, K]⟩ .f32) (w : Vec Ideal ⟨2, ![K, N]⟩ .f32) (b : Vec Ideal ⟨1, ![N]⟩ .f32)
    (h1 : (⟨1, ![N]⟩ : Shape).ShapeCasts ⟨2, ![1, N]⟩) (h2 : (⟨2, ![1, N]⟩ : Shape).Broadcasts ⟨2, ![5000, N]⟩) (p : Fin 5000) (q : Fin N) :
    addf (matmul (φ₁ := .f32) (φ₂ := .f32) (DotDims.plain 5000 K N) none x w (constant ⟨2, ![5000, N]⟩ .f32 0x00000000#32))
        (broadcastTo ⟨2, ![5000, N]⟩ (shapeCast ⟨2, ![1, N]⟩ b h1) h2) (ix2 p q)
      = (∑ k : Fin K, x (ix2 p k) * w (ix2 k q)) + b (ix1 q) := by
  rw [addf_apply, broadcastTo_1b_ab_apply, shapeCast_a_1a_apply]
  exact congrArg (· + b (ix1 q)) (RowDims.matmul_plain_zero_apply none x w p q)

/-- In a side-by-side join, column pre + q is column q of the piece whose columns start at pre. -/
theorem cat_cols {R C c : Nat} (xs : List ((s : Shape) × (s.Idx → EReal))) (h : Shape.Concatenates (xs.map (·.1)) ⟨2, ![R, C]⟩ 1)
    (k : Nat) (x₁ : (⟨2, ![R, c]⟩ : Shape).Idx → EReal) (hxk : xs[k]? = some ⟨⟨2, ![R, c]⟩, x₁⟩) (pre : Nat)
    (hpre : (((xs.take k).map (·.1)).map fun s => if h : s.rank = 2 then s.size ((1 : Fin 2).cast h.symm) else 0).sum = pre)
    (p : Fin R) (j : Fin C) (q : Fin c) (hq : pre + q.val = j.val) :
    concatenate ⟨2, ![R, C]⟩ 1 xs h (ix2 p j) = x₁ (ix2 p q) := by
  obtain ⟨hk, e⟩ := List.getElem?_eq_some_iff.mp hxk
  exact concatenate_apply_piece 1 xs h _ k hk _ x₁ e rfl pre hpre (ix2 p q)
    (fun b hb => by match b with | ⟨0, _⟩ => rfl | ⟨1, _⟩ => exact absurd rfl hb) hq

/-- Terms 192‥255 vanish, both factors being zero there, so the 256-term sum equals the 192-term one. -/
theorem sum_pad (I : Inputs) (n : Fin 50000) (q : Fin 64) :
    ∑ k : Fin 256, ninFull I n k * Wn1p I k q = ∑ k : Fin 192, nin I n k * I.Wn1 k q := by
  refine (Fin.sum_univ_add (a := 192) (b := 64) _).trans ?_
  have hz : ∑ k : Fin 64, ninFull I n (Fin.natAdd 192 k) * Wn1p I (Fin.natAdd 192 k) q = 0 :=
    Finset.sum_eq_zero fun k _ => by
      unfold ninFull Wn1p
      rw [dif_neg (by show ¬ 192 + k.val < 192; omega), dif_neg (by show ¬ 192 + k.val < 192; omega), mul_zero]
  rw [hz, add_zero]
  refine Finset.sum_congr rfl fun k _ => ?_
  unfold ninFull Wn1p
  rw [dif_pos (show (Fin.castAdd 64 k).val < 192 from k.isLt), dif_pos (show (Fin.castAdd 64 k).val < 192 from k.isLt)]
  rfl

/-- The per-row scale times one three-column block plus another, entrywise. -/
theorem vel_apply (v26 v27 : FVec Ideal S5000x3 .f32) (v35 : FVec Ideal S5000x64 .f32) (v36 : Vec Ideal S64x1 .f32)
    (v38 : Vec Ideal S1 .f32) (p : Fin 5000) (t : Fin 3) :
    addf (mulf (broadcastTo S5000x3 (addf (matmul (φ₁ := .f32) (φ₂ := .f32) dot_S5000x64_S64x1_S5000x1_1_0_0_1_n_n none v35 v36
        (constant S5000x1 .f32 0x00000000#32)) (broadcastTo S5000x1 (shapeCast S1x1 v38 shapeCasts_S1_S1x1) broadcasts_S1x1_S5000x1))
        broadcasts_S5000x1_S5000x3) v26) v27 (ix2 p t)
      = ((∑ k : Fin 64, v35 (ix2 p k) * v36 (ix2 k 0)) + v38 (ix1 0)) * v26 (ix2 p t) + v27 (ix2 p t) := by
  rw [addf_apply, mulf_apply, broadcastTo_apply _ broadcasts_S5000x1_S5000x3 (ix2 p t) (ix2 p (0 : Fin 1)) fun a => by
    match a with
    | ⟨0, _⟩ => rfl
    | ⟨1, _⟩ => rfl, dot1_eq, dense]

end NodeM

open NodeM in
/-- Entry (p, j) of the output block is entry j of the layer's packed output row for the node in row p. -/
theorem pay1_10_apply (I : Inputs) (n : Fin 50000) (p : Fin 5000) (x0 : Vec Ideal S5000x256 .f32) (x1 : Vec Ideal S5000x24 .f32)
    (x2 : Vec Ideal S256x64 .f32) (x3 : Vec Ideal S64 .f32) (x4 : Vec Ideal S64x64 .f32) (x5 : Vec Ideal S64 .f32)
    (x6 : Vec Ideal S64x64 .f32) (x7 : Vec Ideal S64 .f32) (x8 : Vec Ideal S64x1 .f32) (x9 : Vec Ideal S1 .f32)
    (h0 : ∀ k : Fin 256, x0 (ix2 p k) = ninFull I n k) (h1 : ∀ j : Fin 24, x1 (ix2 p j) = zf I n j)
    (h2 : ∀ (k : Fin 256) (j : Fin 64), x2 (ix2 k j) = Wn1p I k j) (h3 : ∀ j : Fin 64, x3 (ix1 j) = I.bn1 j)
    (h4 : ∀ k j : Fin 64, x4 (ix2 k j) = I.Wn2 k j) (h5 : ∀ j : Fin 64, x5 (ix1 j) = I.bn2 j)
    (h6 : ∀ k j : Fin 64, x6 (ix2 k j) = I.Wv1 k j) (h7 : ∀ j : Fin 64, x7 (ix1 j) = I.bv1 j)
    (h8 : ∀ k : Fin 64, x8 (ix2 k 0) = I.Wv2 k) (h9 : x9 (ix1 0) = I.bv2) (j : Fin 82) :
    pay1_10 x0 x1 x2 x3 x4 x5 x6 x7 x8 x9 (ix2 p j) = nodeOut I n j := by
  unfold pay1_10
  rw [ld_rN256, ld_rW256x64, ld_rB64 x3, ld_rW64x64 x4, ld_rB64 x5, ld_rW64x64 x6, ld_rB64 x7, ld_rW64x1, ld_rB1]
  have F1 : ∀ q : Fin 64, k1_pay2 x0 (View.ld x0 rNh256) x2 x3 x4 x5 (ix2 p q) = hnew I n q := fun q => by
    unfold k1_pay2 hnew hn1
    simp only [shapeCast_self]
    rw [dot64_eq, dot256_eq, addf_apply, dense, ld_cols 64 x0 _ p q ⟨q.val + 64, by omega⟩ (Nat.add_comm _ _), h0, h5]
    refine congrArg₂ (· + ·) ?_ (congrArg (· + I.bn2 q) (Finset.sum_congr rfl fun k _ => ?_))
    · unfold ninFull nin
      rw [dif_pos (by show q.val + 64 < 192; omega), dif_neg (by show ¬ q.val + 64 < 64; omega),
        dif_pos (by show q.val + 64 < 128; omega)]
      simp only [Nat.add_sub_cancel]
    · rw [relu, dense, h4, h3, ← sum_pad]
      exact congrArg (fun s => max (s + I.bn1 k) 0 * I.Wn2 k q) (Finset.sum_congr rfl fun k' _ => by rw [h0, h2])
  have F3 : (∑ k : Fin 64, k1_pay9 x0 (View.ld x0 rNh256) x2 x3 x4 x5 x6 x7 (ix2 p k) * x8 (ix2 k 0)) + x9 (ix1 0) = scale I n := by
    unfold scale hv
    rw [h9]
    refine congrArg (· + I.bv2) (Finset.sum_congr rfl fun k _ => ?_)
    unfold k1_pay9
    rw [dot64_eq, relu, dense, h7, h8]
    exact congrArg (fun s => max (s + I.bv1 k) 0 * I.Wv2 k) (Finset.sum_congr rfl fun k' _ => by rw [F1, h6])
  have Za : ∀ (a : Fin 4) (t : Fin 3) (q : Fin 12), q.val = 3 * a.val + t.val → View.ld x1 rZa24 (ix2 p q) = I.Z n a t :=
    fun a t q hq => by
      rw [ld_cols 0 x1 _ p q ⟨q.val, by omega⟩ (Nat.zero_add _).symm, h1]
      unfold zf
      rw [dif_pos (show (⟨q.val, _⟩ : Fin 24).val < 12 from q.isLt)]
      exact congrArg₂ (I.Z n) (Fin.ext (by show q.val / 3 = a.val; omega)) (Fin.ext (by show q.val % 3 = t.val; omega))
  have Zb : ∀ (a : Fin 4) (t : Fin 3) (q : Fin 12), q.val = 3 * a.val + t.val → View.ld x1 rZb24 (ix2 p q) = f I n a t :=
    fun a t q hq => by
      rw [ld_cols 12 x1 _ p q ⟨q.val + 12, by omega⟩ (Nat.add_comm _ _), h1]
      unfold zf
      rw [dif_neg (by show ¬ q.val + 12 < 12; omega)]
      exact congrArg₂ (f I n) (Fin.ext (by show (q.val + 12 - 12) / 3 = a.val; omega))
        (Fin.ext (by show (q.val + 12 - 12) % 3 = t.val; omega))
  have V : ∀ t : Fin 3, ((∑ k : Fin 64, k1_pay9 x0 (View.ld x0 rNh256) x2 x3 x4 x5 x6 x7 (ix2 p k) * x8 (ix2 k 0)) + x9 (ix1 0))
      * k1_pay7 (View.ld x1 rZa24) (ix2 p t) + k1_pay8 (View.ld x1 rZb24) (ix2 p t) = vnew I n t := fun t => by
    unfold k1_pay7 k1_pay8 k1_pay3 k1_pay4 vnew
    simp only [shapeCast_self]
    rw [F3, slice2_axis1_apply 3 _ _ p t ⟨3 + t.val, by omega⟩ rfl, slice2_axis1_apply 0 _ _ p t ⟨0 + t.val, by omega⟩ rfl,
      Za 1 t _ (by show 3 + t.val = 3 * 1 + t.val; omega), Zb 0 t _ (by show 0 + t.val = 3 * 0 + t.val; omega)]
  unfold k1_pay1 nodeOut
  by_cases c1 : j.val < 64
  · rw [dif_pos c1]
    exact (cat_cols _ _ 0 _ rfl 0 rfl p j ⟨j.val, c1⟩ (Nat.zero_add _)).trans (F1 _)
  rw [dif_neg c1]
  by_cases c2 : j.val < 76
  · rw [dif_pos c2]
    refine (cat_cols _ _ 1 _ rfl 64 rfl p j ⟨j.val - 64, by omega⟩ (by show 64 + (j.val - 64) = j.val; omega)).trans ?_
    unfold k1_pay5 k1_pay3 k1_pay4 Znew
    simp only [shapeCast_self]
    exact congrArg₂ (· + ·) (Za _ _ _ (by show j.val - 64 = 3 * ((j.val - 64) / 3) + (j.val - 64) % 3; omega))
      (Zb _ _ _ (by show j.val - 64 = 3 * ((j.val - 64) / 3) + (j.val - 64) % 3; omega))
  rw [dif_neg c2]
  by_cases c3 : j.val < 79
  · rw [dif_pos c3]
    refine (cat_cols _ _ 2 _ rfl 76 rfl p j ⟨j.val - 76, by omega⟩ (by show 76 + (j.val - 76) = j.val; omega)).trans ?_
    unfold xnew k1_pay6 k1_pay3
    simp only [shapeCast_self]
    rw [addf_apply, vel_apply, V, slice2_axis1_apply 0 _ _ p _ ⟨0 + (j.val - 76), by omega⟩ rfl,
      Za 0 ⟨j.val - 76, by omega⟩ _ (by show 0 + (j.val - 76) = 3 * 0 + (j.val - 76); omega)]
  · rw [dif_neg c3]
    refine (cat_cols _ _ 3 _ rfl 79 rfl p j ⟨j.val - 79, by omega⟩ (by show 79 + (j.val - 79) = j.val; omega)).trans ?_
    rw [vel_apply, V]

end Cert.KernelIdeal.Hand

end
-- ==== Proof.KIHostA.lean ====
import proofs.«412281_j28432683499987_4_alg».proof.Proof.Gen.KernelIdeal.Launch
import proofs.«412281_j28432683499987_4_alg».proof.Proof.Spec
import proofs.«412281_j28432683499987_4_alg».proof.Proof.LibRowDims
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate
import Idealize.ShloMosaic.Lib.Affine
import Idealize.ShloMosaic.PureOps.Reduce

noncomputable section

namespace Cert.KernelIdeal.Hand

open Idealize.ShloMosaic Idealize.ShloMosaic.TcCoe Idealize.ShloMosaic.ValueIdx
open Cert.KernelIdeal Cert.KernelIdeal.Gen GmnSpec

namespace HostA

/-- Flattening [4, 3] to [12] keeps row-major order: column q is channel q / 3, component q % 3. -/
theorem cast12 (x : FVec Ideal S50000x4x3 .f32) (n : Fin 50000) (q : Fin 12) :
    shapeCast S50000x12 x shapeCasts_S50000x4x3_S50000x12 (ix2 n q) = x (ix3 n ⟨q.val / 3, by omega⟩ ⟨q.val % 3, by omega⟩) := by
  refine shapeCast_apply _ shapeCasts_S50000x4x3_S50000x12 (ix2 n q) (ix3 n ⟨q.val / 3, by omega⟩ ⟨q.val % 3, by omega⟩) ?_
  rw [Shape.rowMajor_val_three, Shape.rowMajor_val_two]
  show (n.val * 4 + q.val / 3) * 3 + q.val % 3 = n.val * 12 + q.val
  omega

end HostA

theorem host0_v0 (W : Valuation τ sig (Elt Ideal)) (n : Fin 50000) (q : Fin 12) :
    (StableHlo.after hostOps0 W main_v0 : FVec Ideal S50000x12 .f32) (ix2 n q)
      = (W main_arg1 : FVec Ideal S50000x4x3 .f32) (ix3 n ⟨q.val / 3, by omega⟩ ⟨q.val % 3, by omega⟩) := by
  show StableHlo.after hostOps0 W (Proc.devRef .tc main_v0) (ix2 n q) = _
  after_results
  exact HostA.cast12 _ n q

theorem host0_v1 (W : Valuation τ sig (Elt Ideal)) (n : Fin 50000) (j : Fin 76) :
    (StableHlo.after hostOps0 W main_v1 : FVec Ideal S50000x76 .f32) (ix2 n j)
      = if h : j.val < 64 then (W main_arg0 : FVec Ideal S50000x64 .f32) (ix2 n ⟨j.val, h⟩)
        else (W main_arg1 : FVec Ideal S50000x4x3 .f32) (ix3 n ⟨(j.val - 64) / 3, by omega⟩ ⟨(j.val - 64) % 3, by omega⟩) := by
  show StableHlo.after hostOps0 W (Proc.devRef .tc main_v1) (ix2 n j) = _
  after_results
  by_cases h : j.val < 64
  · rw [dif_pos h]
    exact concatenate_pair_apply_left (t := S50000x76) (s₁ := S50000x64) (s₂ := S50000x12) (1 : Fin 2) _ _ concatenates_S50000x64_S50000x12_S50000x76_d1 (ix2 n j) rfl
      (ix2 n (⟨j.val, h⟩ : Fin 64)) (fun b => by match b with | ⟨0, _⟩ => rfl | ⟨1, _⟩ => rfl)
  · rw [dif_neg h]
    have hq : j.val - 64 < 12 := by omega
    exact (concatenate_pair_apply_right (t := S50000x76) (s₁ := S50000x64) (s₂ := S50000x12) (1 : Fin 2) _ _ concatenates_S50000x64_S50000x12_S50000x76_d1 (ix2 n j) rfl rfl
      (ix2 n (⟨j.val - 64, hq⟩ : Fin 12)) (fun b hb => by match b with | ⟨0, _⟩ => rfl | ⟨1, _⟩ => exact absurd rfl hb) (by show j.val - 64 + 64 = j.val; omega)).trans (HostA.cast12 _ n ⟨j.val - 64, hq⟩)

namespace HostA

def takeIdx (a : IVec S800000 32) : IVec S800000x1 32 :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 50000#32))) a)

def takeMask (a : IVec S800000 32) : IVec S800000x1 1 :=
  andi (cmpi .sge (takeIdx a) (broadcastInDim S800000x1 ![] bcast_S_S800000x1 (constantI S_ 32 0#32)))
    (cmpi .sle (takeIdx a) (broadcastInDim S800000x1 ![0, 1] bcast_S1x1_S800000x1_0_1
      (broadcastInDim S1x1 ![1] bcast_S1_S1x1_1 (constantI S1 32 49999#32))))

def takeTerm (tbl : FVec Ideal S50000x76 .f32) (a : IVec S800000 32) : FVec Ideal S800000x76 .f32 :=
  select (broadcastInDim S800000x76 ![0] bcast_S800000_S800000x76_0
      (Host.reduce IntOp.andi (takeMask a) (constantI S_ 1 1#1) reducesTo_S800000x1_S800000_d1 h_S_))
    (Host.gather gather_S50000x76_S800000x1_S800000x76_1_0_n_n_0_1_176 tbl (takeIdx a))
    (broadcastInDim S800000x76 ![] bcast_S_S800000x76 (constant (F := Ideal) S_ .f32 0x7FC00000#32))

theorem takeIdx_apply (a : IVec S800000 32) (e : Fin 800000) (h0 : 0 ≤ (a (ix1 e)).toInt) :
    takeIdx a (ix2 e (0 : Fin 1)) = a (ix1 e) := by
  unfold takeIdx
  refine (broadcastInDim_apply _ bcast_S800000_S800000x1_0 _ (ix2 e (0 : Fin 1)) (ix1 e) (fun b => by match b with | ⟨0, _⟩ => rfl)).trans ?_
  show Scalar.select (IntOp.cmpi .slt (a (ix1 e)) 0#32) (IntOp.addi (a (ix1 e)) 50000#32) (a (ix1 e)) = a (ix1 e)
  unfold Scalar.select
  rw [if_neg]
  intro hc
  have := IntOp.cmpi_slt.1 hc
  have hz : (0#32 : BitVec 32).toInt = 0 := by decide
  omega

theorem takeMask_apply (a : IVec S800000 32) (e : Fin 800000)
    (hr : 0 ≤ (a (ix1 e)).toInt ∧ (a (ix1 e)).toInt < 50000) :
    takeMask a (ix2 e (0 : Fin 1)) = 1#1 := by
  show IntOp.andi (IntOp.cmpi .sge (takeIdx a (ix2 e (0 : Fin 1))) 0#32)
    (IntOp.cmpi .sle (takeIdx a (ix2 e (0 : Fin 1))) 49999#32) = 1#1
  rw [takeIdx_apply a e hr.1]
  refine IntOp.andi_eq_one.2 ⟨IntOp.cmpi_sge.2 ?_, IntOp.cmpi_sle.2 ?_⟩
  · have hz : (0#32 : BitVec 32).toInt = 0 := by decide
    omega
  · have hz : (49999#32 : BitVec 32).toInt = 49999 := by decide
    omega

theorem takeAll_apply (m : IVec S800000x1 1) (e : Fin 800000) (hm : m (ix2 e (0 : Fin 1)) = 1#1) :
    Host.reduce IntOp.andi m (constantI S_ 1 1#1) reducesTo_S800000x1_S800000_d1 h_S_ (ix1 e) = 1#1 := by
  have hR : S800000x1.Reduces [1] S800000 := by decide
  rw [Host.reduce_eq_fold_single IntOp.andi m (constantI S_ 1 1#1) reducesTo_S800000x1_S800000_d1 hR h_S_ (ix1 e)]
  have hf : ∀ g : Fin 1 → BitVec 1, (Finset.univ : Finset (Fin 1)).fold IntOp.andi 1#1 g = IntOp.andi (g 0) 1#1 := by
    intro g
    rw [Finset.univ_unique, Finset.fold_singleton]
    rfl
  refine (hf (m ∘ hR.lift (ix1 e))).trans ?_
  have hl : hR.lift (ix1 e) (0 : Fin 1) = ix2 e (0 : Fin 1) := by
    funext c
    refine Fin.ext ?_
    match c with | ⟨0, _⟩ => rfl | ⟨1, _⟩ => rfl
  show IntOp.andi (m (hR.lift (ix1 e) (0 : Fin 1))) 1#1 = 1#1
  rw [hl, hm]
  decide

theorem takeTerm_apply (tbl : FVec Ideal S50000x76 .f32) (a : IVec S800000 32) (e : Fin 800000) (j : Fin 76)
    (hr : 0 ≤ (a (ix1 e)).toInt ∧ (a (ix1 e)).toInt < 50000) :
    takeTerm tbl a (ix2 e j) = tbl (ix2 (nodeOf (a (ix1 e))) j) := by
  unfold takeTerm
  rw [select_apply]
  have hc : broadcastInDim S800000x76 ![0] bcast_S800000_S800000x76_0
      (Host.reduce IntOp.andi (takeMask a) (constantI S_ 1 1#1) reducesTo_S800000x1_S800000_d1 h_S_) (ix2 e j) = 1#1 := by
    refine (broadcastInDim_apply _ bcast_S800000_S800000x76_0 _ (ix2 e j) (ix1 e) (fun b => by match b with | ⟨0, _⟩ => rfl)).trans ?_
    exact takeAll_apply _ e (takeMask_apply a e hr)
  rw [hc]
  unfold Scalar.select
  rw [if_pos (show (1#1 : BitVec 1) = 1 from rfl)]
  refine (RowDims.rowGather_apply (N := 50000) (C := 76) (R := 800000) (by omega)
    gather_S50000x76_S800000x1_S800000x76_1_0_n_n_0_1_176_wf tbl (takeIdx a) e j).trans ?_
  rw [takeIdx_apply a e hr.1]
  rfl

end HostA

namespace HostA

theorem ofBuf_toBuf {sig : RefSig} {Val : EltTy → Type} {T : BufTy} (x : StableHlo.TRef sig T) (v : T.Contents Val) :
    x.ofBuf (x.toBuf v) = v := by
  obtain ⟨r, h, _, _⟩ := x
  subst h
  rfl

set_option maxHeartbeats 4000000 in

theorem host01_v2_term (W : Valuation τ sig (Elt Ideal)) :
    (StableHlo.after hostOps0_1 W main_v2 : FVec Ideal S800000x76 .f32)
      = takeTerm (W main_v1 : FVec Ideal S50000x76 .f32) (W main_arg2 : IVec S800000 32) := by
  have eA : (StableHlo.TRef.of main_arg2 : StableHlo.TRef sig ⟨S800000, .i32⟩).ofBuf (W (Proc.tc.devRef main_arg2))
      = (W main_arg2 : IVec S800000 32) := rfl
  have eT : (StableHlo.TRef.of main_v1 : StableHlo.TRef sig ⟨S50000x76, .f32⟩).ofBuf (W (Proc.tc.devRef main_v1))
      = (W main_v1 : FVec Ideal S50000x76 .f32) := rfl
  have eO : ∀ X : FVec Ideal S800000x76 .f32,
      (StableHlo.TRef.toBuf (Val := Elt Ideal) (StableHlo.TRef.of main_v2 : StableHlo.TRef sig ⟨S800000x76, .f32⟩) X
        : FVec Ideal S800000x76 .f32) = X := by intro X; rfl
  show StableHlo.after hostOps0_1 W (Proc.devRef .tc main_v2) = _
  after_results
  simp only [ofBuf_toBuf]
  refine (eO _).trans ?_
  first | rw [eA, eT] | simp only [eA, eT]
  unfold takeTerm takeMask takeIdx
  rfl

set_option maxHeartbeats 4000000 in

theorem host02_v3_term (W : Valuation τ sig (Elt Ideal)) :
    (StableHlo.after hostOps0_2 W main_v3 : FVec Ideal S800000x76 .f32)
      = takeTerm (W main_v1 : FVec Ideal S50000x76 .f32) (W main_arg3 : IVec S800000 32) := by
  have eA : (StableHlo.TRef.of main_arg3 : StableHlo.TRef sig ⟨S800000, .i32⟩).ofBuf (W (Proc.tc.devRef main_arg3))
      = (W main_arg3 : IVec S800000 32) := rfl
  have eT : (StableHlo.TRef.of main_v1 : StableHlo.TRef sig ⟨S50000x76, .f32⟩).ofBuf (W (Proc.tc.devRef main_v1))
      = (W main_v1 : FVec Ideal S50000x76 .f32) := rfl
  have eO : ∀ X : FVec Ideal S800000x76 .f32,
      (StableHlo.TRef.toBuf (Val := Elt Ideal) (StableHlo.TRef.of main_v3 : StableHlo.TRef sig ⟨S800000x76, .f32⟩) X
        : FVec Ideal S800000x76 .f32) = X := by intro X; rfl
  show StableHlo.after hostOps0_2 W (Proc.devRef .tc main_v3) = _
  after_results
  simp only [ofBuf_toBuf]
  refine (eO _).trans ?_
  first | rw [eA, eT] | simp only [eA, eT]
  unfold takeTerm takeMask takeIdx
  rfl

end HostA

theorem host01_v2 (W : Valuation τ sig (Elt Ideal)) (e : Fin 800000) (j : Fin 76)
    (hr : 0 ≤ ((W main_arg2 : IVec S800000 32) (ix1 e)).toInt ∧ ((W main_arg2 : IVec S800000 32) (ix1 e)).toInt < 50000) :
    (StableHlo.after hostOps0_1 W main_v2 : FVec Ideal S800000x76 .f32) (ix2 e j)
      = (W main_v1 : FVec Ideal S50000x76 .f32) (ix2 (nodeOf ((W main_arg2 : IVec S800000 32) (ix1 e))) j) := by
  rw [HostA.host01_v2_term]
  exact HostA.takeTerm_apply _ _ e j hr

theorem host02_v3 (W : Valuation τ sig (Elt Ideal)) (e : Fin 800000) (j : Fin 76)
    (hr : 0 ≤ ((W main_arg3 : IVec S800000 32) (ix1 e)).toInt ∧ ((W main_arg3 : IVec S800000 32) (ix1 e)).toInt < 50000) :
    (StableHlo.after hostOps0_2 W main_v3 : FVec Ideal S800000x76 .f32) (ix2 e j)
      = (W main_v1 : FVec Ideal S50000x76 .f32) (ix2 (nodeOf ((W main_arg3 : IVec S800000 32) (ix1 e))) j) := by
  rw [HostA.host02_v3_term]
  exact HostA.takeTerm_apply _ _ e j hr

theorem host03_v4 (W : Valuation τ sig (Elt Ideal)) (k j : Fin 64) :
    (StableHlo.after hostOps0_3 W main_v4 : FVec Ideal S64x64 .f32) (ix2 k j)
      = (W main_arg4 : FVec Ideal S144x64 .f32) (ix2 ⟨k.val, by omega⟩ j) := by
  show StableHlo.after hostOps0_3 W (Proc.devRef .tc main_v4) (ix2 k j) = _
  after_results
  exact slice2_axis0_apply 0 _ slices_S144x64_S64x64_0_0 k j ⟨k.val, by omega⟩ (Nat.zero_add _).symm

theorem host03_v5 (W : Valuation τ sig (Elt Ideal)) (k j : Fin 64) :
    (StableHlo.after hostOps0_3 W main_v5 : FVec Ideal S64x64 .f32) (ix2 k j)
      = (W main_arg4 : FVec Ideal S144x64 .f32) (ix2 ⟨k.val + 64, by omega⟩ j) := by
  show StableHlo.after hostOps0_3 W (Proc.devRef .tc main_v5) (ix2 k j) = _
  after_results
  exact slice2_axis0_apply 64 _ slices_S144x64_S64x64_64_0 k j ⟨k.val + 64, by omega⟩ (Nat.add_comm _ _)

theorem host03_v6 (W : Valuation τ sig (Elt Ideal)) (k : Fin 16) (j : Fin 64) :
    (StableHlo.after hostOps0_3 W main_v6 : FVec Ideal S16x64 .f32) (ix2 k j)
      = (W main_arg4 : FVec Ideal S144x64 .f32) (ix2 ⟨k.val + 128, by omega⟩ j) := by
  show StableHlo.after hostOps0_3 W (Proc.devRef .tc main_v6) (ix2 k j) = _
  after_results
  exact slice2_axis0_apply 128 _ slices_S144x64_S16x64_128_0 k j ⟨k.val + 128, by omega⟩ (Nat.add_comm _ _)

theorem host2_v34 (W : Valuation τ sig (Elt Ideal)) (n : Fin 50000) (j : Fin 64) :
    (StableHlo.after hostOps2 W main_v34 : FVec Ideal S50000x64 .f32) (ix2 n j)
      = (W main_v33 : FVec Ideal S50000x82 .f32) (ix2 n ⟨j.val, by omega⟩) := by
  show StableHlo.after hostOps2 W (Proc.devRef .tc main_v34) (ix2 n j) = _
  after_results
  exact slice2_axis1_apply 0 _ slices_S50000x82_S50000x64_0_0 n j ⟨j.val, by omega⟩ (Nat.zero_add _).symm

theorem host2_v36 (W : Valuation τ sig (Elt Ideal)) (n : Fin 50000) (t : Fin 3) :
    (StableHlo.after hostOps2 W main_v36 : FVec Ideal S50000x3 .f32) (ix2 n t)
      = (W main_v33 : FVec Ideal S50000x82 .f32) (ix2 n ⟨76 + t.val, by omega⟩) := by
  show StableHlo.after hostOps2 W (Proc.devRef .tc main_v36) (ix2 n t) = _
  after_results
  exact slice2_axis1_apply 76 _ slices_S50000x82_S50000x3_0_76 n t ⟨76 + t.val, by omega⟩ rfl

theorem host2_v37 (W : Valuation τ sig (Elt Ideal)) (n : Fin 50000) (t : Fin 3) :
    (StableHlo.after hostOps2 W main_v37 : FVec Ideal S50000x3 .f32) (ix2 n t)
      = (W main_v33 : FVec Ideal S50000x82 .f32) (ix2 n ⟨79 + t.val, by omega⟩) := by
  show StableHlo.after hostOps2 W (Proc.devRef .tc main_v37) (ix2 n t) = _
  after_results
  exact slice2_axis1_apply 79 _ slices_S50000x82_S50000x3_0_79 n t ⟨79 + t.val, by omega⟩ rfl

theorem host2_v38 (W : Valuation τ sig (Elt Ideal)) (n : Fin 50000) (a : Fin 4) (t : Fin 3) :
    (StableHlo.after hostOps2 W main_v38 : FVec Ideal S50000x4x3 .f32) (ix3 n a t)
      = (W main_v33 : FVec Ideal S50000x82 .f32) (ix2 n ⟨64 + 3 * a.val + t.val, by omega⟩) := by
  show StableHlo.after hostOps2 W (Proc.devRef .tc main_v38) (ix3 n a t) = _
  after_results
  have hq : 3 * a.val + t.val < 12 := by omega
  refine (shapeCast_apply _ shapeCasts_S50000x12_S50000x4x3 (ix3 n a t) (ix2 n (⟨3 * a.val + t.val, hq⟩ : Fin 12)) ?_).trans ?_
  · rw [Shape.rowMajor_val_three, Shape.rowMajor_val_two]
    show n.val * 12 + (3 * a.val + t.val) = (n.val * 4 + a.val) * 3 + t.val
    omega
  · exact slice2_axis1_apply 64 _ slices_S50000x82_S50000x12_0_64 n ⟨3 * a.val + t.val, hq⟩ ⟨64 + 3 * a.val + t.val, by omega⟩
      (by show 64 + 3 * a.val + t.val = 64 + (3 * a.val + t.val); omega)

end Cert.KernelIdeal.Hand

end
-- ==== Proof.KIHostB.lean ====
import proofs.«412281_j28432683499987_4_alg».proof.Proof.Gen.KernelIdeal.Launch
import proofs.«412281_j28432683499987_4_alg».proof.Proof.Spec
import proofs.«412281_j28432683499987_4_alg».proof.Proof.LibRowDims
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.TcCoe Idealize.ShloMosaic.ValueIdx
open Cert.KernelIdeal Cert.KernelIdeal.Gen GmnSpec

namespace HostB

/-- A scalar spread over a whole shape reads the scalar at every index. -/
theorem splat_apply {t : Shape} (h : S_.BroadcastsInDim t (![] : Fin 0 → Fin t.rank)) (b : BitVec 32) (j : t.Idx) :
    broadcastInDim t ![] h (constant (F := Ideal) S_ .f32 b) j = Ideal.ofBits .f32 b :=
  broadcastInDim_apply ![] h _ j ix0 (fun a => a.elim0)

theorem idxCol_apply (idx : IVec S800000 32) (e : Fin 800000) :
    broadcastInDim S800000x1 ![0] bcast_S800000_S800000x1_0 idx (ix2 e 0) = idx (ix1 e) :=
  broadcastInDim_apply ![0] bcast_S800000_S800000x1_0 idx (ix2 e 0) (ix1 e) fun a => match a with | ⟨0, _⟩ => rfl

/-- An index word whose signed value is a node's number selects exactly that node. -/
theorem ite_node {α : Type} (a n : Fin 50000) (v : BitVec 32) (hv : v.toInt = (a.val : Int)) (x y : α) :
    (if v.toInt = (n.val : Int) then x else y) = if a = n then x else y := by
  by_cases h : a = n
  · rw [if_pos h, if_pos (by rw [hv, h])]
  · rw [if_neg h, if_neg (fun h' => h (Fin.ext (by rw [hv] at h'; exact_mod_cast h')))]

theorem scatterAdd_ideal {s si u : Shape} {φ : FTy} {w : Nat} (d : ScatterDims s si u) (x : FVec Ideal s φ) (idx : IVec si w)
    (upd : FVec Ideal u φ) : Host.scatterAdd d x idx upd = Ideal.hostScatterAdd d x idx upd := rfl

theorem hostDivf_apply {s : Shape} {φ : FTy} (a b : FVec Ideal s φ) (i : s.Idx) :
    Host.divf a b i = Ideal.div (a i) (b i) := rfl

/-- Entry (n, j) of a segment sum into the zero table adds column j of the rows whose index names node n. -/
theorem segSum_apply {C : Nat} {d : ScatterDims ⟨2, ![50000, C]⟩ ⟨2, ![800000, 1]⟩ ⟨2, ![800000, C]⟩}
    (wf : ScatterDims.WF ⟨2, ![50000, C]⟩ ⟨2, ![800000, 1]⟩ ⟨2, ![800000, C]⟩ [1] [0] [0] 1)
    (hd : d = RowDims.rowScatter 50000 C 800000 wf) (hz : S_.BroadcastsInDim ⟨2, ![50000, C]⟩ (![] : Fin 0 → Fin 2))
    (idx : IVec S800000 32) (upd : FVec Ideal ⟨2, ![800000, C]⟩ .f32) (a : Fin 800000 → Fin 50000)
    (ha : ∀ e : Fin 800000, (idx (ix1 e)).toInt = ((a e).val : Int)) (n : Fin 50000) (j : Fin C) :
    Host.scatterAdd d (broadcastInDim ⟨2, ![50000, C]⟩ ![] hz (constant (F := Ideal) S_ .f32 0x00000000#32))
        (broadcastInDim S800000x1 ![0] bcast_S800000_S800000x1_0 idx) upd (ix2 n j)
      = ∑ e : Fin 800000, if a e = n then upd (ix2 e j) else 0 := by
  rw [scatterAdd_ideal, hd, RowDims.rowScatterAdd_apply, splat_apply, Ideal.ofBits_zero_f32, zero_add]
  refine Finset.sum_congr rfl fun e _ => ?_
  rw [idxCol_apply]
  exact ite_node (a e) n _ (ha e) _ _

def segRowT (W : Valuation τ sig (Elt Ideal)) : FVec Ideal S50000x77 .f32 :=
  Host.scatterAdd scatter_S50000x77_S800000x1_S800000x77_1_0_0_1
    (broadcastInDim S50000x77 ![] bcast_S_S50000x77 (constant (F := Ideal) S_ .f32 0x00000000#32))
    (broadcastInDim S800000x1 ![0] bcast_S800000_S800000x1_0 (W (Proc.devRef .tc main_arg2)))
    (W (Proc.devRef .tc main_v7_0))

def segColT (W : Valuation τ sig (Elt Ideal)) : FVec Ideal S50000x65 .f32 :=
  Host.scatterAdd scatter_S50000x65_S800000x1_S800000x65_1_0_0_1
    (broadcastInDim S50000x65 ![] bcast_S_S50000x65 (constant (F := Ideal) S_ .f32 0x00000000#32))
    (broadcastInDim S800000x1 ![0] bcast_S800000_S800000x1_0 (W (Proc.devRef .tc main_arg3)))
    (W (Proc.devRef .tc main_v7_1))

def aggT (W : Valuation τ sig (Elt Ideal)) : FVec Ideal S50000x64 .f32 :=
  extractStridedSlice S50000x64 ![0, 12] (segRowT W) slices_S50000x77_S50000x64_0_12

def cntT (W : Valuation τ sig (Elt Ideal)) : FVec Ideal S50000x1 .f32 :=
  maximumf (extractStridedSlice S50000x1 ![0, 64] (segColT W) slices_S50000x65_S50000x1_0_64)
    (broadcastInDim S50000x1 ![] bcast_S_S50000x1 (constant (F := Ideal) S_ .f32 0x3F800000#32))

def othersT (W : Valuation τ sig (Elt Ideal)) : FVec Ideal S50000x64 .f32 :=
  Host.divf (extractStridedSlice S50000x64 ![0, 0] (segColT W) slices_S50000x65_S50000x64_0_0)
    (broadcastInDim S50000x64 ![0, 1] bcast_S50000x1_S50000x64_0_1 (cntT W))

def ninT (W : Valuation τ sig (Elt Ideal)) : FVec Ideal S50000x192 .f32 :=
  concatenate S50000x192 1 [⟨S50000x64, othersT W⟩,
    ⟨S50000x64, (W (Proc.devRef .tc main_arg0) : FVec Ideal S50000x64 .f32)⟩,
    ⟨S50000x64, aggT W⟩] concatenates_S50000x64_S50000x64_S50000x64_S50000x192_d1

/-- Sent mean, own feature and received sum side by side, then 64 zero columns. -/
def ninFullT (W : Valuation τ sig (Elt Ideal)) : FVec Ideal S50000x256 .f32 :=
  concatenate S50000x256 1 [⟨S50000x192, ninT W⟩,
    ⟨S50000x64, broadcastInDim S50000x64 ![] bcast_S_S50000x64 (constant (F := Ideal) S_ .f32 0x00000000#32)⟩]
    concatenates_S50000x192_S50000x64_S50000x256_d1

theorem nary3_result {Val : EltTy → Type} {x a b y : Ref sig .tc}
    (f : ((k : Fin 3) → ((![x, a, b] : Fin 3 → Ref sig .tc) k).ty.Contents Val) → y.ty.Contents Val) (hxs hy)
    (V : Valuation τ sig Val) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

open StableHlo in
set_option maxHeartbeats 4000000 in
theorem after_v29_term (W : Valuation τ sig (Elt Ideal)) :
    (StableHlo.after hostOps1 W (Proc.devRef .tc main_v29) : FVec Ideal S50000x256 .f32) = ninFullT W := by
  show StableHlo.after hostOps1 W (Proc.devRef .tc main_v29) = _
  simp only [after_cons, after_nil]
  repeat (first
    | rw [nullary_result] | rw [unary_result] | rw [binary_result] | rw [ternary_result]
    | rw [nary3_result]
    | (rw [nullary_result_ne]; rotate_left; decide)
    | (rw [unary_result_ne]; rotate_left; decide)
    | (rw [binary_result_ne]; rotate_left; decide)
    | (rw [ternary_result_ne]; rotate_left; decide)
    | (rw [nary_result_ne]; rotate_left; decide))
  all_goals rfl

section Reads

variable (I : Inputs) (W : Valuation τ sig (Elt Ideal))
  (hrow : ∀ e : Fin 800000, ((W main_arg2 : IVec S800000 32) (ix1 e)).toInt = ((I.row e).val : Int))
  (hcol : ∀ e : Fin 800000, ((W main_arg3 : IVec S800000 32) (ix1 e)).toInt = ((I.col e).val : Int))
  (hP0 : ∀ (e : Fin 800000) (j : Fin 77), (W main_v7_0 : FVec Ideal S800000x77 .f32) (ix2 e j) = prow I e j)
  (hP1 : ∀ (e : Fin 800000) (j : Fin 65), (W main_v7_1 : FVec Ideal S800000x65 .f32) (ix2 e j) = pcol I e j)
  (hh : ∀ (n : Fin 50000) (j : Fin 64), (W main_arg0 : FVec Ideal S50000x64 .f32) (ix2 n j) = I.h n j)

include hrow hP0 in
theorem aggT_apply (n : Fin 50000) (j : Fin 64) : aggT W (ix2 n j) = agg I n j := by
  unfold aggT segRowT agg
  refine (slice2_axis1_apply 12 _ slices_S50000x77_S50000x64_0_12 n j ⟨j.val + 12, by omega⟩ (Nat.add_comm _ _)).trans ?_
  refine (segSum_apply (d := scatter_S50000x77_S800000x1_S800000x77_1_0_0_1) scatter_S50000x77_S800000x1_S800000x77_1_0_0_1_wf rfl bcast_S_S50000x77 _ _ I.row hrow n _).trans
    (Finset.sum_congr rfl fun e _ => congrArg (fun x => if I.row e = n then x else 0) ((hP0 e _).trans ?_))
  unfold prow
  rw [dif_neg (by show ¬ (j.val + 12 < 12); omega), dif_pos (by show j.val + 12 < 76; omega)]
  exact congrArg (ef I e) (Fin.ext (by show j.val + 12 - 12 = j.val; omega))

include hcol hP1 in

/-- Entry (n, j) of the senders' segment sum adds column j over the edges node n sends. -/
theorem segColT_apply (n : Fin 50000) (j : Fin 65) :
    segColT W (ix2 n j) = ∑ e : Fin 800000, if I.col e = n then pcol I e j else 0 :=
  (segSum_apply (d := scatter_S50000x65_S800000x1_S800000x65_1_0_0_1) scatter_S50000x65_S800000x1_S800000x65_1_0_0_1_wf rfl bcast_S_S50000x65 _ _ I.col hcol n j).trans
    (Finset.sum_congr rfl fun e _ => congrArg (fun x => if I.col e = n then x else 0) (hP1 e j))

include hcol hP1 in
theorem cntT_apply (n : Fin 50000) : cntT W (ix2 n 0) = cntCol I n := by
  unfold cntT cntCol
  rw [maximumf_apply, splat_apply]
  refine congrArg (fun x => max x oneE) ?_
  refine (slice2_axis1_apply 64 _ slices_S50000x65_S50000x1_0_64 n 0 ⟨64, by omega⟩ rfl).trans ?_
  refine (segColT_apply I W hcol hP1 n _).trans (Finset.sum_congr rfl fun e _ => ?_)
  unfold pcol
  rw [dif_neg (by show ¬ (64 < 64); omega)]

include hcol hP1 in
theorem othersT_apply (n : Fin 50000) (j : Fin 64) : othersT W (ix2 n j) = others I n j := by
  unfold othersT others
  rw [hostDivf_apply]
  refine congrArg₂ Ideal.div ?_ ((broadcastInDim_apply ![0, 1] bcast_S50000x1_S50000x64_0_1 _ (ix2 n j) (ix2 n 0)
    (fun a => match a with | ⟨0, _⟩ => rfl | ⟨1, _⟩ => rfl)).trans (cntT_apply I W hcol hP1 n))
  refine (slice2_axis1_apply 0 _ slices_S50000x65_S50000x64_0_0 n j ⟨j.val, by omega⟩ (Nat.zero_add _).symm).trans ?_
  refine (segColT_apply I W hcol hP1 n _).trans (Finset.sum_congr rfl fun e _ => ?_)
  unfold pcol
  rw [dif_pos (by show j.val < 64; omega)]

include hrow hcol hP0 hP1 hh in
theorem ninT_apply (n : Fin 50000) (k : Fin 192) : ninT W (ix2 n k) = nin I n k := by
  unfold ninT nin
  have key := concatenate_apply_piece (t := S50000x192) 1 [⟨S50000x64, othersT W⟩,
    ⟨S50000x64, (W (Proc.devRef .tc main_arg0) : FVec Ideal S50000x64 .f32)⟩, ⟨S50000x64, aggT W⟩]
    concatenates_S50000x64_S50000x64_S50000x64_S50000x192_d1 (ix2 n k)
  by_cases h1 : k.val < 64
  · rw [dif_pos h1]
    exact (key 0 (by show (0 : Nat) < 3; omega) S50000x64 _ rfl rfl 0 rfl (ix2 n ⟨k.val, h1⟩)
      (fun b hb => match b with | ⟨0, _⟩ => rfl | ⟨1, _⟩ => absurd rfl hb) (Nat.zero_add _)).trans
      (othersT_apply I W hcol hP1 n _)
  · rw [dif_neg h1]
    by_cases h2 : k.val < 128
    · rw [dif_pos h2]
      exact (key 1 (by show (1 : Nat) < 3; omega) S50000x64 _ rfl rfl 64 rfl (ix2 n ⟨k.val - 64, by omega⟩)
        (fun b hb => match b with | ⟨0, _⟩ => rfl | ⟨1, _⟩ => absurd rfl hb)
        (by show 64 + (k.val - 64) = k.val; omega)).trans (hh n _)
    · rw [dif_neg h2]
      exact (key 2 (by show (2 : Nat) < 3; omega) S50000x64 _ rfl rfl 128 rfl (ix2 n ⟨k.val - 128, by have := k.isLt; omega⟩)
        (fun b hb => match b with | ⟨0, _⟩ => rfl | ⟨1, _⟩ => absurd rfl hb)
        (by show 128 + (k.val - 128) = k.val; omega)).trans (aggT_apply I W hrow hP0 n _)

include hrow hcol hP0 hP1 hh in
theorem ninFullT_apply (n : Fin 50000) (k : Fin 256) : ninFullT W (ix2 n k) = ninFull I n k := by
  unfold ninFullT ninFull
  by_cases h1 : k.val < 192
  · rw [dif_pos h1]
    exact (concatenate_pair_apply_left 1 _ _ concatenates_S50000x192_S50000x64_S50000x256_d1 (ix2 n k) rfl (ix2 n ⟨k.val, h1⟩)
      (fun b => match b with | ⟨0, _⟩ => rfl | ⟨1, _⟩ => rfl)).trans (ninT_apply I W hrow hcol hP0 hP1 hh n _)
  · rw [dif_neg h1]
    exact (concatenate_pair_apply_right 1 _ _ concatenates_S50000x192_S50000x64_S50000x256_d1 (ix2 n k) rfl rfl
      (ix2 n ⟨k.val - 192, by have := k.isLt; omega⟩) (fun b hb => match b with | ⟨0, _⟩ => rfl | ⟨1, _⟩ => absurd rfl hb)
      (by show (k.val - 192) + 192 = k.val; omega)).trans ((splat_apply _ _ _).trans Ideal.ofBits_zero_f32)

end Reads

end HostB

theorem host1_v29 (I : Inputs) (W : Valuation τ sig (Elt Ideal))
    (hrow : ∀ e : Fin 800000, ((W main_arg2 : IVec S800000 32) (ix1 e)).toInt = ((I.row e).val : Int))
    (hcol : ∀ e : Fin 800000, ((W main_arg3 : IVec S800000 32) (ix1 e)).toInt = ((I.col e).val : Int))
    (hP0 : ∀ (e : Fin 800000) (j : Fin 77), (W main_v7_0 : FVec Ideal S800000x77 .f32) (ix2 e j) = prow I e j)
    (hP1 : ∀ (e : Fin 800000) (j : Fin 65), (W main_v7_1 : FVec Ideal S800000x65 .f32) (ix2 e j) = pcol I e j)
    (hh : ∀ (n : Fin 50000) (j : Fin 64), (W main_arg0 : FVec Ideal S50000x64 .f32) (ix2 n j) = I.h n j)
    (n : Fin 50000) (k : Fin 256) :
    (StableHlo.after hostOps1 W main_v29 : FVec Ideal S50000x256 .f32) (ix2 n k) = ninFull I n k :=
  (congrFun (HostB.after_v29_term W) (ix2 n k)).trans (HostB.ninFullT_apply I W hrow hcol hP0 hP1 hh n k)

end Cert.KernelIdeal.Hand

end
-- ==== Proof.KIHostC.lean ====
import proofs.«412281_j28432683499987_4_alg».proof.Proof.Gen.KernelIdeal.Launch
import proofs.«412281_j28432683499987_4_alg».proof.Proof.Spec
import proofs.«412281_j28432683499987_4_alg».proof.Proof.LibRowDims
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.TcCoe Idealize.ShloMosaic.ValueIdx
open Cert.KernelIdeal Cert.KernelIdeal.Gen GmnSpec

namespace HostC

/-- A scalar spread over a whole shape reads the scalar at every index. -/
theorem splat_apply {t : Shape} (h : S_.BroadcastsInDim t (![] : Fin 0 → Fin t.rank)) (b : BitVec 32) (j : t.Idx) :
    broadcastInDim t ![] h (constant (F := Ideal) S_ .f32 b) j = Ideal.ofBits .f32 b :=
  broadcastInDim_apply ![] h _ j ix0 (fun a => a.elim0)

theorem scatterAdd_ideal {s si u : Shape} {φ : FTy} {w : Nat} (d : ScatterDims s si u) (x : FVec Ideal s φ) (idx : IVec si w)
    (upd : FVec Ideal u φ) : Host.scatterAdd d x idx upd = Ideal.hostScatterAdd d x idx upd := rfl

theorem hostDivf_apply {s : Shape} {φ : FTy} (a b : FVec Ideal s φ) (i : s.Idx) :
    Host.divf a b i = Ideal.div (a i) (b i) := rfl

/-- Edge rows added up per receiving node, starting from the zero table. -/
def rowSumF (idx : IVec S800000 32) (upd : FVec Ideal S800000x77 .f32) : FVec Ideal S50000x77 .f32 :=
  Host.scatterAdd scatter_S50000x77_S800000x1_S800000x77_1_0_0_1
    (broadcastInDim S50000x77 ![] bcast_S_S50000x77 (constant (F := Ideal) S_ .f32 0x00000000#32))
    (broadcastInDim S800000x1 ![0] bcast_S800000_S800000x1_0 idx) upd

/-- Columns 0 to 11 of a table, each divided by column 76 raised to at least one. -/
def meanOf (x : FVec Ideal S50000x77 .f32) : FVec Ideal S50000x12 .f32 :=
  Host.divf (extractStridedSlice S50000x12 ![0, 0] x slices_S50000x77_S50000x12_0_0)
    (broadcastInDim S50000x12 ![0, 1] bcast_S50000x1_S50000x12_0_1
      (maximumf (extractStridedSlice S50000x1 ![0, 76] x slices_S50000x77_S50000x1_0_76)
        (broadcastInDim S50000x1 ![] bcast_S_S50000x1 (constant (F := Ideal) S_ .f32 0x3F800000#32))))

/-- Coordinates followed by the per-node means, joined along the columns. -/
def coordF (z : FVec Ideal S50000x12 .f32) (idx : IVec S800000 32) (upd : FVec Ideal S800000x77 .f32) :
    FVec Ideal S50000x24 .f32 :=
  concatenate S50000x24 1 [⟨S50000x12, z⟩, ⟨S50000x12, meanOf (rowSumF idx upd)⟩] concatenates_S50000x12_S50000x12_S50000x24_d1

theorem after_v31 (W : Valuation τ sig (Elt Ideal)) :
    (StableHlo.after hostOps1 W (Proc.devRef .tc main_v31) : FVec Ideal S256x64 .f32)
      = concatenate S256x64 0 [⟨S192x64, (W (Proc.devRef .tc main_arg8) : FVec Ideal S192x64 .f32)⟩,
          ⟨S64x64, broadcastInDim S64x64 ![] bcast_S_S64x64 (constant (F := Ideal) S_ .f32 0x00000000#32)⟩]
          concatenates_S192x64_S64x64_S256x64_d0 := by
  show StableHlo.after hostOps1 W (Proc.devRef .tc main_v31) = _
  after_results <;> rfl

theorem after_v32 (W : Valuation τ sig (Elt Ideal)) (i : S50000x24.Idx) :
    (StableHlo.after hostOps1 W (Proc.devRef .tc main_v32) : FVec Ideal S50000x24 .f32) i
      = coordF (W (Proc.devRef .tc main_v0)) (W (Proc.devRef .tc main_arg2)) (W (Proc.devRef .tc main_v7_0)) i := by
  show StableHlo.after hostOps1 W (Proc.devRef .tc main_v32) i = _
  unfold coordF meanOf rowSumF
  after_results_simp

/-- An index word whose signed value is a node's number selects exactly that node. -/
theorem ite_node {α : Type} (a n : Fin 50000) (v : BitVec 32) (hv : v.toInt = (a.val : Int)) (x y : α) :
    (if v.toInt = (n.val : Int) then x else y) = if a = n then x else y := by
  by_cases h : a = n
  · rw [if_pos h, if_pos (by rw [hv, h])]
  · rw [if_neg h, if_neg (fun h' => h (Fin.ext (by rw [hv] at h'; exact_mod_cast h')))]

/-- Entry (n, j) of the segment sum adds column j of the rows whose index names node n. -/
theorem rowSumF_apply (idx : IVec S800000 32) (upd : FVec Ideal S800000x77 .f32) (r : Fin 800000 → Fin 50000)
    (hr : ∀ e : Fin 800000, (idx (ix1 e)).toInt = ((r e).val : Int)) (n : Fin 50000) (j : Fin 77) :
    rowSumF idx upd (ix2 n j) = ∑ e : Fin 800000, if r e = n then upd (ix2 e j) else 0 := by
  have hd : scatter_S50000x77_S800000x1_S800000x77_1_0_0_1
      = RowDims.rowScatter 50000 77 800000 scatter_S50000x77_S800000x1_S800000x77_1_0_0_1_wf := rfl
  unfold rowSumF
  rw [scatterAdd_ideal, hd, RowDims.rowScatterAdd_apply, splat_apply, Ideal.ofBits_zero_f32, zero_add]
  refine Finset.sum_congr rfl fun e _ => ?_
  rw [broadcastInDim_apply ![0] bcast_S800000_S800000x1_0 idx (ix2 e 0) (ix1 e) (fun a => match a with | ⟨0, _⟩ => rfl)]
  exact ite_node (r e) n _ (hr e) _ _

/-- The mean's entry (n, q) is the table's entry (n, q) over max (entry (n, 76)) 1. -/
theorem meanOf_apply (x : FVec Ideal S50000x77 .f32) (n : Fin 50000) (q : Fin 12) :
    meanOf x (ix2 n q) = Ideal.div (x (ix2 n ⟨q.val, by omega⟩)) (max (x (ix2 n ⟨76, by omega⟩)) oneE) := by
  unfold meanOf
  rw [hostDivf_apply, slice2_axis1_apply 0 x slices_S50000x77_S50000x12_0_0 n q ⟨q.val, by omega⟩ (Nat.zero_add _).symm,
    broadcastInDim_apply ![0, 1] bcast_S50000x1_S50000x12_0_1 _ (ix2 n q) (ix2 n 0)
      (fun a => match a with | ⟨0, _⟩ => rfl | ⟨1, _⟩ => rfl),
    maximumf_apply, slice2_axis1_apply 76 x slices_S50000x77_S50000x1_0_76 n 0 ⟨76, by omega⟩ rfl, splat_apply]

/-- With scaled differences in columns 0 to 11 of the edge rows and one in column 76, the mean is the mean scaled difference. -/
theorem meanF_eq (I : Inputs) (idx : IVec S800000 32) (upd : FVec Ideal S800000x77 .f32)
    (hrow : ∀ e : Fin 800000, (idx (ix1 e)).toInt = ((I.row e).val : Int))
    (hP0 : ∀ (e : Fin 800000) (j : Fin 77), upd (ix2 e j) = prow I e j) (n : Fin 50000) (q : Fin 12) :
    meanOf (rowSumF idx upd) (ix2 n q) = f I n ⟨q.val / 3, by omega⟩ ⟨q.val % 3, by omega⟩ := by
  rw [meanOf_apply, rowSumF_apply idx upd I.row hrow, rowSumF_apply idx upd I.row hrow]
  unfold f seg cntRow
  refine congrArg₂ Ideal.div ?_ (congrArg (fun x => max x oneE) ?_)
  · refine Finset.sum_congr rfl fun e _ => ?_
    rw [hP0]
    unfold prow
    rw [dif_pos (show ((⟨q.val, by omega⟩ : Fin 77)).val < 12 from q.isLt)]
  · refine Finset.sum_congr rfl fun e _ => ?_
    rw [hP0]
    unfold prow
    rw [dif_neg (by decide), dif_neg (by decide)]

theorem coordF_eq (I : Inputs) (z : FVec Ideal S50000x12 .f32) (idx : IVec S800000 32) (upd : FVec Ideal S800000x77 .f32)
    (hrow : ∀ e : Fin 800000, (idx (ix1 e)).toInt = ((I.row e).val : Int))
    (hP0 : ∀ (e : Fin 800000) (j : Fin 77), upd (ix2 e j) = prow I e j)
    (hZ0 : ∀ (n : Fin 50000) (q : Fin 12), z (ix2 n q) = I.Z n ⟨q.val / 3, by omega⟩ ⟨q.val % 3, by omega⟩)
    (n : Fin 50000) (j : Fin 24) : coordF z idx upd (ix2 n j) = zf I n j := by
  unfold coordF zf
  by_cases hj : j.val < 12
  · rw [dif_pos hj]
    exact (concatenate_pair_apply_left 1 _ _ concatenates_S50000x12_S50000x12_S50000x24_d1 _ rfl (ix2 n ⟨j.val, hj⟩)
      (fun b => match b with | ⟨0, _⟩ => rfl | ⟨1, _⟩ => rfl)).trans (hZ0 n ⟨j.val, hj⟩)
  · rw [dif_neg hj]
    exact (concatenate_pair_apply_right 1 _ _ concatenates_S50000x12_S50000x12_S50000x24_d1 _ rfl rfl (ix2 n ⟨j.val - 12, by omega⟩)
      (fun b hb => match b with | ⟨0, _⟩ => rfl | ⟨1, _⟩ => absurd rfl hb)
      (by show j.val - 12 + 12 = j.val; omega)).trans (meanF_eq I idx upd hrow hP0 n ⟨j.val - 12, by omega⟩)

end HostC

theorem host1_v31 (I : Inputs) (W : Valuation τ sig (Elt Ideal))
    (hW : ∀ (k : Fin 192) (j : Fin 64), (W main_arg8 : FVec Ideal S192x64 .f32) (ix2 k j) = I.Wn1 k j)
    (k : Fin 256) (j : Fin 64) :
    (StableHlo.after hostOps1 W main_v31 : FVec Ideal S256x64 .f32) (ix2 k j) = Wn1p I k j := by
  refine (congrFun (HostC.after_v31 W) (ix2 k j)).trans ?_
  unfold Wn1p
  by_cases hk : k.val < 192
  · rw [dif_pos hk, ← hW ⟨k.val, hk⟩ j]
    exact concatenate_pair_apply_left 0 _ _ concatenates_S192x64_S64x64_S256x64_d0 _ rfl (ix2 ⟨k.val, hk⟩ j)
      (fun b => match b with | ⟨0, _⟩ => rfl | ⟨1, _⟩ => rfl)
  · rw [dif_neg hk]
    exact (concatenate_pair_apply_right 0 _ _ concatenates_S192x64_S64x64_S256x64_d0 _ rfl rfl (ix2 ⟨k.val - 192, by omega⟩ j)
      (fun b hb => match b with | ⟨0, _⟩ => absurd rfl hb | ⟨1, _⟩ => rfl)
      (by show k.val - 192 + 192 = k.val; omega)).trans ((HostC.splat_apply _ _ _).trans Ideal.ofBits_zero_f32)

theorem host1_v32 (I : Inputs) (W : Valuation τ sig (Elt Ideal))
    (hrow : ∀ e : Fin 800000, ((W main_arg2 : IVec S800000 32) (ix1 e)).toInt = ((I.row e).val : Int))
    (hP0 : ∀ (e : Fin 800000) (j : Fin 77), (W main_v7_0 : FVec Ideal S800000x77 .f32) (ix2 e j) = prow I e j)
    (hZ0 : ∀ (n : Fin 50000) (q : Fin 12), (W main_v0 : FVec Ideal S50000x12 .f32) (ix2 n q) = I.Z n ⟨q.val / 3, by omega⟩ ⟨q.val % 3, by omega⟩)
    (n : Fin 50000) (j : Fin 24) :
    (StableHlo.after hostOps1 W main_v32 : FVec Ideal S50000x24 .f32) (ix2 n j) = zf I n j :=
  (HostC.after_v32 W (ix2 n j)).trans (HostC.coordF_eq I _ _ _ hrow hP0 hZ0 n j)

end Cert.KernelIdeal.Hand

end
-- ==== Proof.KIValue.lean ====
import proofs.«412281_j28432683499987_4_alg».proof.Proof.KIKeep
import proofs.«412281_j28432683499987_4_alg».proof.Proof.KIBlocks
import proofs.«412281_j28432683499987_4_alg».proof.Proof.KIEdgeMathA
import proofs.«412281_j28432683499987_4_alg».proof.Proof.KIEdgeMathB
import proofs.«412281_j28432683499987_4_alg».proof.Proof.KINodeMath
import proofs.«412281_j28432683499987_4_alg».proof.Proof.KIHostA
import proofs.«412281_j28432683499987_4_alg».proof.Proof.KIHostB
import proofs.«412281_j28432683499987_4_alg».proof.Proof.KIHostC

noncomputable section

namespace Cert.KernelIdeal.Hand

open Idealize.ShloMosaic Idealize.ShloMosaic.TcCoe Idealize.ShloMosaic.ValueIdx
open Cert.KernelIdeal Cert.KernelIdeal.Gen GmnSpec

variable (m : (ℓ : Loc nD τ sig) → Buf (Elt Ideal) ℓ) (c : Dev nD)
  (hR : InRange (W0 m c main_arg2) (W0 m c main_arg3))

abbrev edgeAt (t : Fin cfg0.N) (p : Fin 5000) : Fin 800000 := ⟨5000 * t.val + p.val, Blocks.row0_lt t p⟩
abbrev nodeAt (t : Fin cfg1.N) (p : Fin 5000) : Fin 50000 := ⟨5000 * t.val + p.val, Blocks.row1_lt t p⟩

/-- Nothing before the node region writes `b`; every argument array is such. -/
abbrev Kept (b : Ref sig .tc) : Prop :=
  b ∉ hostOps0_W ∧ b ∉ hostOps0_1_W ∧ b ∉ hostOps0_2_W ∧ b ∉ hostOps0_3_W ∧ b ≠ main_v7_0 ∧ b ≠ main_v7_1 ∧ b ∉ hostOps1_W

theorem kept (b : Ref sig .tc) (h : Kept b) :
    W4 m c (Proc.devRef .tc b) = W0 m c (Proc.devRef .tc b) ∧ W5 m c (Proc.devRef .tc b) = W0 m c (Proc.devRef .tc b)
      ∧ W6 m c (Proc.devRef .tc b) = W0 m c (Proc.devRef .tc b) :=
  ⟨W4_keep m c b h.1 h.2.1 h.2.2.1 h.2.2.2.1, W5_keep0 m c b h.1 h.2.1 h.2.2.1 h.2.2.2.1 h.2.2.2.2.1 h.2.2.2.2.2.1,
    W6_keep0 m c b h.1 h.2.1 h.2.2.1 h.2.2.2.1 h.2.2.2.2.1 h.2.2.2.2.2.1 h.2.2.2.2.2.2⟩

include hR in
theorem row_toInt (e : Fin 800000) : ((W0 m c main_arg2 : IVec S800000 32) (ix1 e)).toInt = (((inp m c).row e).val : Int) :=
  (nodeOf_val (hR e).1.1 (hR e).1.2).symm

include hR in
theorem rows_eq (e : Fin 800000) (j : Fin 76) :
    (W4 m c main_v2 : FVec Ideal S800000x76 .f32) (ix2 e j) = hz (inp m c) ((inp m c).row e) j := by
  have ea : W1 m c main_arg2 = W0 m c main_arg2 := W1_arg m c main_arg2 (by decide)
  have h := host01_v2 (W1 m c) e j (by rw [ea]; exact (hR e).1)
  rw [ea] at h
  rw [W4_v2]
  exact h.trans (host0_v1 (W0 m c) _ j)

include hR in
theorem cols_eq (e : Fin 800000) (j : Fin 76) :
    (W4 m c main_v3 : FVec Ideal S800000x76 .f32) (ix2 e j) = hz (inp m c) ((inp m c).col e) j := by
  have ea : W2 m c main_arg3 = W0 m c main_arg3 := W2_arg m c main_arg3 (by decide) (by decide)
  have h := host02_v3 (W2 m c) e j (by rw [ea]; exact (hR e).2)
  rw [ea, W2_v1] at h
  rw [W4_v3]
  exact h.trans (host0_v1 (W0 m c) _ j)

/-- The first edge weight as the third stretch finds it. -/
theorem we1_eq : W3 m c main_arg4 = W0 m c main_arg4 := W3_arg m c main_arg4 (by decide) (by decide) (by decide)

section Region0
variable (t : Fin cfg0.N) (p : Fin 5000)

include hR in
theorem blkR_eq (j : Fin 76) :
    (iblk0 (U4 m) c 0 t : Vec Ideal S5000x76 .f32) (ix2 p j) = hz (inp m c) ((inp m c).row (edgeAt t p)) j :=
  (iblk0_0_apply (U4 m) c t p j).trans (rows_eq m c hR (edgeAt t p) j)
include hR in
theorem blkC_eq (j : Fin 76) :
    (iblk0 (U4 m) c 1 t : Vec Ideal S5000x76 .f32) (ix2 p j) = hz (inp m c) ((inp m c).col (edgeAt t p)) j :=
  (iblk0_1_apply (U4 m) c t p j).trans (cols_eq m c hR (edgeAt t p) j)
theorem blk5_eq (j : Fin 64) : (iblk0 (U4 m) c 5 t : Vec Ideal S64 .f32) (ix1 j) = (inp m c).be1 j :=
  congrFun ((iblk0_5_whole (U4 m) c t).trans (kept m c main_arg5 (by decide)).1) (ix1 j)
theorem blk6_eq (k j : Fin 64) : (iblk0 (U4 m) c 6 t : Vec Ideal S64x64 .f32) (ix2 k j) = (inp m c).We2 k j :=
  congrFun ((iblk0_6_whole (U4 m) c t).trans (kept m c main_arg6 (by decide)).1) (ix2 k j)
theorem blk7_eq (j : Fin 64) : (iblk0 (U4 m) c 7 t : Vec Ideal S64 .f32) (ix1 j) = (inp m c).be2 j :=
  congrFun ((iblk0_7_whole (U4 m) c t).trans (kept m c main_arg7 (by decide)).1) (ix1 j)

include hR in
theorem pre_eq (j : Fin 64) :
    edgePre (iblk0 (U4 m) c 0 t) (iblk0 (U4 m) c 1 t) (iblk0 (U4 m) c 2 t) (iblk0 (U4 m) c 3 t) (iblk0 (U4 m) c 4 t) (ix2 p j)
      = ∑ k : Fin 144, ein (inp m c) (edgeAt t p) k * (inp m c).We1 k j :=
  edgePre_apply (inp m c) (edgeAt t p) p _ _ _ _ _ (blkR_eq m c hR t p) (blkC_eq m c hR t p)
    (fun k j => by rw [iblk0_2_whole (U4 m) c t]; exact (host03_v4 (W3 m c) k j).trans (congrFun (we1_eq m c) _))
    (fun k j => by rw [iblk0_3_whole (U4 m) c t]; exact (host03_v5 (W3 m c) k j).trans (congrFun (we1_eq m c) _))
    (fun k j => by rw [iblk0_4_whole (U4 m) c t]; exact (host03_v6 (W3 m c) k j).trans (congrFun (we1_eq m c) _)) j

end Region0

include hR in
theorem P0_eq (e : Fin 800000) (j : Fin 77) : (W5 m c main_v7_0 : FVec Ideal S800000x77 .f32) (ix2 e j) = prow (inp m c) e j :=
  congrFun ((W5_arr m c 11).trans (arrAt0_11 (U4 m) c (fun i => prow (inp m c) (i 0) (i 1)) fun t p j =>
    edge_store11_apply _ _ _ _ _ _ _ _ _ _ _ (inp m c) (edgeAt t p) p
      (cdiff_apply (inp m c) (edgeAt t p) p _ _ (blkR_eq m c hR t p) (blkC_eq m c hR t p)) (pre_eq m c hR t p)
      (blk5_eq m c t) (blk6_eq m c t) (blk7_eq m c t)
      (fun k j => congrFun ((iblk0_8_whole (U4 m) c t).trans (kept m c main_arg12 (by decide)).1) (ix2 k j))
      (fun j => congrFun ((iblk0_9_whole (U4 m) c t).trans (kept m c main_arg13 (by decide)).1) (ix1 j))
      (fun k => congrFun ((iblk0_10_whole (U4 m) c t).trans (kept m c main_arg14 (by decide)).1) (ix2 k 0)) j)) (ix2 e j)

include hR in
theorem P1_eq (e : Fin 800000) (j : Fin 65) : (W5 m c main_v7_1 : FVec Ideal S800000x65 .f32) (ix2 e j) = pcol (inp m c) e j :=
  congrFun ((W5_arr m c 12).trans (arrAt0_12 (U4 m) c (fun i => pcol (inp m c) (i 0) (i 1)) fun t p j =>
    edge_store12_apply _ _ _ _ _ _ _ _ (inp m c) (edgeAt t p) p (pre_eq m c hR t p) (blk5_eq m c t) (blk6_eq m c t) (blk7_eq m c t) j))
    (ix2 e j)

include hR in
theorem nin_eq (n : Fin 50000) (k : Fin 256) : (W6 m c main_v29 : FVec Ideal S50000x256 .f32) (ix2 n k) = ninFull (inp m c) n k :=
  host1_v29 (inp m c) (W5 m c)
    (fun e => by rw [(kept m c main_arg2 (by decide)).2.1]; exact row_toInt m c hR e)
    (fun e => by rw [(kept m c main_arg3 (by decide)).2.1]; exact (nodeOf_val (hR e).2.1 (hR e).2.2).symm)
    (P0_eq m c hR) (P1_eq m c hR) (fun n j => by rw [(kept m c main_arg0 (by decide)).2.1]; rfl) n k

include hR in
theorem zf_eq (n : Fin 50000) (j : Fin 24) : (W6 m c main_v32 : FVec Ideal S50000x24 .f32) (ix2 n j) = zf (inp m c) n j :=
  host1_v32 (inp m c) (W5 m c) (fun e => by rw [(kept m c main_arg2 (by decide)).2.1]; exact row_toInt m c hR e) (P0_eq m c hR)
    (fun n q => by rw [W5_v0]; exact host0_v0 (W0 m c) n q) n j

theorem wn1p_eq (k : Fin 256) (j : Fin 64) : (W6 m c main_v31 : FVec Ideal S256x64 .f32) (ix2 k j) = Wn1p (inp m c) k j :=
  host1_v31 (inp m c) (W5 m c) (fun k j => by rw [(kept m c main_arg8 (by decide)).2.1]; rfl) k j

include hR in
theorem N_eq (n : Fin 50000) (j : Fin 82) : (W7 m c main_v33 : FVec Ideal S50000x82 .f32) (ix2 n j) = nodeOut (inp m c) n j :=
  congrFun ((W7_arr m c 10).trans (arrAt1_10 (U6 m) c (fun i => nodeOut (inp m c) (i 0) (i 1)) fun t p j =>
    pay1_10_apply (inp m c) (nodeAt t p) p _ _ _ _ _ _ _ _ _ _
      (fun k => (iblk1_0_apply (U6 m) c t p k).trans (nin_eq m c hR (nodeAt t p) k))
      (fun j => (iblk1_1_apply (U6 m) c t p j).trans (zf_eq m c hR (nodeAt t p) j))
      (fun k j => by rw [iblk1_2_whole (U6 m) c t]; exact wn1p_eq m c k j)
      (fun j => congrFun ((iblk1_3_whole (U6 m) c t).trans (kept m c main_arg9 (by decide)).2.2) (ix1 j))
      (fun k j => congrFun ((iblk1_4_whole (U6 m) c t).trans (kept m c main_arg10 (by decide)).2.2) (ix2 k j))
      (fun j => congrFun ((iblk1_5_whole (U6 m) c t).trans (kept m c main_arg11 (by decide)).2.2) (ix1 j))
      (fun k j => congrFun ((iblk1_6_whole (U6 m) c t).trans (kept m c main_arg15 (by decide)).2.2) (ix2 k j))
      (fun j => congrFun ((iblk1_7_whole (U6 m) c t).trans (kept m c main_arg16 (by decide)).2.2) (ix1 j))
      (fun k => congrFun ((iblk1_8_whole (U6 m) c t).trans (kept m c main_arg17 (by decide)).2.2) (ix2 k 0))
      (congrFun ((iblk1_9_whole (U6 m) c t).trans (kept m c main_arg18 (by decide)).2.2) (ix1 0)) j)) (ix2 n j)

include hR in
theorem out_h (n : Fin 50000) (j : Fin 64) : (W8 m c main_v34 : FVec Ideal S50000x64 .f32) (ix2 n j) = hnew (inp m c) n j := by
  refine (host2_v34 (W7 m c) n j).trans ((N_eq m c hR n ⟨j.val, by omega⟩).trans ?_)
  unfold nodeOut; rw [dif_pos (show (⟨j.val, _⟩ : Fin 82).val < 64 from j.isLt)]

include hR in
theorem out_Z (n : Fin 50000) (a : Fin 4) (t : Fin 3) :
    (W8 m c main_v38 : FVec Ideal S50000x4x3 .f32) (ix3 n a t) = Znew (inp m c) n a t := by
  refine (host2_v38 (W7 m c) n a t).trans ((N_eq m c hR n ⟨64 + 3 * a.val + t.val, by omega⟩).trans ?_)
  unfold nodeOut
  rw [dif_neg (show ¬ (64 + 3 * a.val + t.val < 64) by omega), dif_pos (show 64 + 3 * a.val + t.val < 76 by omega)]
  congr 1 <;> exact Fin.ext (by simp only; omega)

include hR in
theorem out_x (n : Fin 50000) (t : Fin 3) : (W8 m c main_v36 : FVec Ideal S50000x3 .f32) (ix2 n t) = xnew (inp m c) n t := by
  refine (host2_v36 (W7 m c) n t).trans ((N_eq m c hR n ⟨76 + t.val, by omega⟩).trans ?_)
  unfold nodeOut
  rw [dif_neg (show ¬ (76 + t.val < 64) by omega), dif_neg (show ¬ (76 + t.val < 76) by omega), dif_pos (show 76 + t.val < 79 by omega)]
  congr 1; exact Fin.ext (by simp only; omega)

include hR in
theorem out_v (n : Fin 50000) (t : Fin 3) : (W8 m c main_v37 : FVec Ideal S50000x3 .f32) (ix2 n t) = vnew (inp m c) n t := by
  refine (host2_v37 (W7 m c) n t).trans ((N_eq m c hR n ⟨79 + t.val, by omega⟩).trans ?_)
  unfold nodeOut
  rw [dif_neg (show ¬ (79 + t.val < 64) by omega), dif_neg (show ¬ (79 + t.val < 76) by omega), dif_neg (show ¬ (79 + t.val < 79) by omega)]
  congr 1; exact Fin.ext (by simp only; omega)

end Cert.KernelIdeal.Hand

end
-- ==== Proof.PreDecode.lean ====
import proofs.«412281_j28432683499987_4_alg».proof.Pre_finite_inputs
import proofs.«412281_j28432683499987_4_alg».proof.Proof.Gen.Pre_finite_inputs
import proofs.«412281_j28432683499987_4_alg».proof.Proof.Spec
import Idealize.ShloMosaic.Lib.ReduceAll
import Idealize.ShloMosaic.Lib.StableHlo.Predicate
import Idealize.ShloMosaic.Lib.ValueIdx

noncomputable section

namespace Cert.Pre_finite_inputs.Hand

open Idealize.ShloMosaic Cert.Pre_finite_inputs ValueIdx

variable [Facts]

/-- A word whose signed tests against 0 and 50000 both hold lies in [0, 50000). -/
theorem word_inRange (w : BitVec 32)
    (h : IntOp.andi (IntOp.cmpi .sge w 0#32) (IntOp.cmpi .slt w 50000#32) = 1#1) :
    0 ≤ w.toInt ∧ w.toInt < 50000 :=
  (IntOp.andi_eq_one.1 h).imp IntOp.cmpi_sge.1 IntOp.cmpi_slt.1

/-- The predicate's last two conjuncts are the two range tests, each a conjunction over all edges. -/
theorem inRange_of_pre (a0 : FVec Ideal S50000x64 .f32) (a1 : FVec Ideal S50000x4x3 .f32) (a2 a3 : IVec S800000 32)
    (a4 : FVec Ideal S144x64 .f32) (a5 : FVec Ideal S64 .f32) (a6 : FVec Ideal S64x64 .f32) (a7 : FVec Ideal S64 .f32) (a8 : FVec Ideal S192x64 .f32)
    (a9 : FVec Ideal S64 .f32) (a10 : FVec Ideal S64x64 .f32) (a11 : FVec Ideal S64 .f32) (a12 : FVec Ideal S64x64 .f32) (a13 : FVec Ideal S64 .f32)
    (a14 : FVec Ideal S64x1 .f32) (a15 : FVec Ideal S64x64 .f32) (a16 : FVec Ideal S64 .f32) (a17 : FVec Ideal S64x1 .f32) (a18 : FVec Ideal S1 .f32)
    (h : fn (F := Ideal) a0 a1 a2 a3 a4 a5 a6 a7 a8 a9 a10 a11 a12 a13 a14 a15 a16 a17 a18 = fun _ => 1#1) : GmnSpec.InRange a2 a3 := by
  have h5 : fn_part5 (F := Ideal) a2 a3 _ _ ix0 = 1#1 := congrFun h ix0
  obtain ⟨h90, h96⟩ := IntOp.andi_eq_one.1 h5
  obtain ⟨-, h89⟩ := IntOp.andi_eq_one.1 h90
  exact fun e => ⟨word_inRange _ (Host.reduce_andi_eq_one _ _ _ _ _ h89 (ix1 e) (eq_ix0 _)),
    word_inRange _ (Host.reduce_andi_eq_one _ _ _ _ _ h96 (ix1 e) (eq_ix0 _))⟩

end Cert.Pre_finite_inputs.Hand

end
-- ==== Proof.RefValueA.lean ====
import proofs.«412281_j28432683499987_4_alg».proof.Proof.Gen.ReferenceIdeal.Read
import proofs.«412281_j28432683499987_4_alg».proof.Proof.Spec
import proofs.«412281_j28432683499987_4_alg».proof.Proof.LibRowDims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.Hand

open Idealize.ShloMosaic Idealize.ShloMosaic.ValueIdx Cert.ReferenceIdeal Cert.ReferenceIdeal.Gen Cert.ReferenceIdeal.Read GmnSpec

namespace RefA

/-- A word whose signed reading is not negative is not signed-below zero, so the wrap of negative indices keeps it. -/
theorem wrap_of_nonneg {a b : BitVec 32} (h : 0 ≤ a.toInt) :
    Scalar.select (IntOp.cmpi .slt a 0#32) (IntOp.addi a b) a = a :=
  if_neg (by simp [IntOp.cmpi, BitVec.slt, Int.not_lt.2 h])

/-- The coordinate gather reads the table's slab at the start index, read signed and clamped into the node range. -/
theorem gatherZ_apply {α : Type} (x : S50000x4x3.Idx → α) (idx : IVec S800000x1 32) (e : Fin 800000) (a : Fin 4)
    (t : Fin 3) :
    Host.gather gather_S50000x4x3_S800000x1_S800000x4x3_12_0_n_n_0_1_143 x idx (ix3 e a t)
      = x (ix3 (nodeOf (idx (ix2 e 0))) a t) := by
  refine congrArg x (funext fun c => Fin.ext ?_)
  match c with
  | ⟨0, _⟩ => exact congrArg (fun i => min (idx i).toInt.toNat 49999) (eq_ix2 _)
  | ⟨1, _⟩ => exact Nat.zero_add _
  | ⟨2, _⟩ => exact Nat.zero_add _

/-- The coordinates gathered at an edge's end whose index word is not negative. -/
theorem ref_gatherZ (x1 : FVec Ideal S50000x4x3 .f32) (x : IVec S800000 32) (e : Fin 800000) (a : Fin 4) (t : Fin 3)
    (h : 0 ≤ (x (ix1 e)).toInt) :
    val_main_v6 (F := Ideal) x1 x (ix3 e a t) = x1 (ix3 (nodeOf (x (ix1 e))) a t) := by
  unfold val_main_v6
  rw [gatherZ_apply, val_main_v5_apply, show idx_main_v5 (ix2 e 0) = ix1 e from eq_ix1 _]
  exact congrArg (fun v => x1 (ix3 (nodeOf v) a t)) (wrap_of_nonneg h)

end RefA

section Stages

open RefA

variable (x0 : FVec Ideal S50000x64 .f32) (x1 : FVec Ideal S50000x4x3 .f32) (x2 x3 : IVec S800000 32)
  (x4 : FVec Ideal S144x64 .f32) (x5 : FVec Ideal S64 .f32) (x6 : FVec Ideal S64x64 .f32) (x7 : FVec Ideal S64 .f32)
  (x8 : FVec Ideal S192x64 .f32) (x9 : FVec Ideal S64 .f32) (x10 : FVec Ideal S64x64 .f32) (x11 : FVec Ideal S64 .f32)
  (x12 : FVec Ideal S64x64 .f32) (x13 : FVec Ideal S64 .f32) (x14 : FVec Ideal S64x1 .f32)
  (x15 : FVec Ideal S64x64 .f32) (x16 : FVec Ideal S64 .f32) (x17 : FVec Ideal S64x1 .f32) (x18 : FVec Ideal S1 .f32)
  (hR : GmnSpec.InRange x2 x3)

include hR

local notation "I" => GmnSpec.mkInputs x0 x1 x2 x3 x4 x5 x6 x7 x8 x9 x10 x11 x12 x13 x14 x15 x16 x17 x18

theorem ref_cdiff (e : Fin 800000) (a : Fin 4) (t : Fin 3) :
    val_main_v14 (F := Ideal) x1 x2 x3 (ix3 e a t) = cdiff I e a t :=
  congrArg₂ (· - ·) (ref_gatherZ x1 x2 e a t (hR e).1.1) (ref_gatherZ x1 x3 e a t (hR e).2.1)

theorem ref_radial (e : Fin 800000) (i : Fin 16) :
    val_main_v21 (F := Ideal) x1 x2 x3 (ix2 e i) = radial I e i := by
  have hc := ref_cdiff x0 x1 x2 x3 x4 x5 x6 x7 x8 x9 x10 x11 x12 x13 x14 x15 x16 x17 x18 hR e
  have hg : ∀ i : Fin 16, val_main_v16 (F := Ideal) x1 x2 x3 (ix2 e i) = gramFlat I e i := fun i => by
    have hi : idx_main_v16 (ix2 e i) = ix3 e ⟨i.val / 4, by omega⟩ ⟨i.val % 4, by omega⟩ := by
      funext a
      refine Fin.ext ?_
      have he := e.isLt
      have hi := i.isLt
      match a with
      | ⟨0, _⟩ => show (e.val * 16 + i.val) / 16 = e.val; omega
      | ⟨1, _⟩ => show (e.val * 16 + i.val) / 4 % 4 = i.val / 4; omega
      | ⟨2, _⟩ => show (e.val * 16 + i.val) % 4 = i.val % 4; omega
    rw [val_main_v16_apply, hi, val_main_v15_apply]
    exact Finset.sum_congr rfl fun t _ =>
      congrArg₂ (· * ·) ((congrArg _ (eq_ix3 _)).trans (hc _ t)) ((congrArg _ (eq_ix3 _)).trans (hc _ t))
  have hn : val_main_v17 (F := Ideal) x1 x2 x3 (ix2 e 0) = nrm I e := by
    rw [val_main_v17_apply, val_main_call0_v2_apply, show idx_main_call0_v2 (ix2 e 0) = ix1 e from eq_ix1 _,
      val_main_call0_v1_apply, val_main_call0_cst_apply]
    simp only [Ideal.hostUnary_sqrt_def, Ideal.ofBits_def]
    rw [Ideal.ofBits_zero_f32, zero_add]
    refine congrArg Ideal.sqrt (Finset.sum_congr rfl fun k _ => ?_)
    rw [val_main_call0_v0_apply, show idx_main_call0_v1 (ix1 e) k = ix2 e k from eq_ix2 _, hg]
    rfl
  rw [val_main_v21_apply, val_main_v20_apply, show idx_main_v20 (ix2 e i) = ix2 e 0 from eq_ix2 _, val_main_v19_apply,
    val_main_v18_apply, val_main_cst_apply, hg, hn]
  rfl

end Stages

end Cert.ReferenceIdeal.Hand

end
-- ==== Proof.RefValueA2.lean ====
import proofs.«412281_j28432683499987_4_alg».proof.Proof.Gen.ReferenceIdeal.Read
import proofs.«412281_j28432683499987_4_alg».proof.Proof.Spec
import proofs.«412281_j28432683499987_4_alg».proof.Proof.LibRowDims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.Hand

open Idealize.ShloMosaic Idealize.ShloMosaic.ValueIdx Cert.ReferenceIdeal Cert.ReferenceIdeal.Gen Cert.ReferenceIdeal.Read GmnSpec

namespace RefA2

/-- A word whose signed reading is not negative is not signed-below zero, so the wrap of negative indices keeps it. -/
theorem wrapIdx_eq {a b : BitVec 32} (h : 0 ≤ a.toInt) :
    Scalar.select (IntOp.cmpi .slt a 0#32) (IntOp.addi a b) a = a :=
  if_neg (by simp [IntOp.cmpi, BitVec.slt, Int.not_lt.2 h])

/-- Three pieces side by side: the piece whose span holds `k`, at the column counted from the start of its span. -/
theorem einConcat_apply (a b : S800000x64.Idx → EReal) (c : S800000x16.Idx → EReal) (e : Fin 800000) (k : Fin 144) :
    concatenate S800000x144 1 [⟨S800000x64, a⟩, ⟨S800000x64, b⟩, ⟨S800000x16, c⟩]
        concatenates_S800000x64_S800000x64_S800000x16_S800000x144_d1 (ix2 e k)
      = if h : k.val < 64 then a (ix2 e ⟨k.val, h⟩)
        else if h2 : k.val < 128 then b (ix2 e ⟨k.val - 64, by omega⟩)
        else c (ix2 e ⟨k.val - 128, by omega⟩) := by
  have P := concatenate_apply_piece (t := S800000x144) 1 [⟨S800000x64, a⟩, ⟨S800000x64, b⟩, ⟨S800000x16, c⟩]
    concatenates_S800000x64_S800000x64_S800000x16_S800000x144_d1 (ix2 e k)
  have hd : ∀ {n : Nat} (i : Fin n) (d : Fin 2), d ≠ 1 →
      ((ix2 e i : (⟨2, ![800000, n]⟩ : Shape).Idx) d).val = ((ix2 e k : S800000x144.Idx) d).val :=
    fun i d hd => match d with | ⟨0, _⟩ => rfl | ⟨1, _⟩ => absurd rfl hd
  split
  · exact P 0 (by simp) _ a rfl rfl 0 rfl (ix2 e ⟨k.val, by omega⟩) (hd _) (Nat.zero_add _)
  split
  · exact P 1 (by simp) _ b rfl rfl 64 rfl (ix2 e ⟨k.val - 64, by omega⟩) (hd _) (by show 64 + (k.val - 64) = k.val; omega)
  · exact P 2 (by simp) _ c rfl rfl 128 rfl (ix2 e ⟨k.val - 128, by omega⟩) (hd _) (by show 128 + (k.val - 128) = k.val; omega)

/-- A perceptron layer at an entry: the row's inner product with the weight's column, plus the bias, floored at zero. -/
theorem layer_apply {K : Nat} {D : DotDims ⟨2, ![800000, K]⟩ ⟨2, ![K, 64]⟩ S800000x64} (hD : D = DotDims.plain 800000 K 64)
    (y : FVec Ideal ⟨2, ![800000, K]⟩ .f32) (W : FVec Ideal ⟨2, ![K, 64]⟩ .f32) (b : FVec Ideal S64 .f32)
    (e : Fin 800000) (j : Fin 64) :
    maximumf (addf (Host.dotGeneral D none y W)
        (broadcastInDim S800000x64 ![0, 1] bcast_S1x64_S800000x64_0_1 (broadcastInDim S1x64 ![1] bcast_S64_S1x64_1 b)))
      (broadcastInDim S800000x64 ![] bcast_S_S800000x64 (constant S_ .f32 0x00000000#32)) (ix2 e j)
      = max ((∑ k : Fin K, y (ix2 e k) * W (ix2 k j)) + b (ix1 j)) 0 := by
  subst hD
  exact congrArg₂ max (congrArg₂ (· + ·) (RowDims.dotGeneral_plain_apply none _ y W e j) (congrArg b (eq_ix1 _)))
    Ideal.ofBits_zero_f32

/-- The feature row gathered at an edge's end whose index word is not negative. -/
theorem ref_feat (x0 : FVec Ideal S50000x64 .f32) (x : IVec S800000 32) (e : Fin 800000) (j : Fin 64)
    (h : 0 ≤ (x (ix1 e)).toInt) :
    val_main_v28 (F := Ideal) x0 x (ix2 e j) = x0 (ix2 (nodeOf (x (ix1 e))) j) := by
  refine (RowDims.rowGather_apply (N := 50000) (by decide) _ x0 _ e j).trans ?_
  rw [val_main_v27_apply, show idx_main_v27 (ix2 e 0) = ix1 e from eq_ix1 _]
  exact congrArg (fun v => x0 (ix2 (nodeOf v) j)) (wrapIdx_eq h)

end RefA2

section Stages

open RefA2

variable (x0 : FVec Ideal S50000x64 .f32) (x1 : FVec Ideal S50000x4x3 .f32) (x2 x3 : IVec S800000 32)
  (x4 : FVec Ideal S144x64 .f32) (x5 : FVec Ideal S64 .f32) (x6 : FVec Ideal S64x64 .f32) (x7 : FVec Ideal S64 .f32)
  (x8 : FVec Ideal S192x64 .f32) (x9 : FVec Ideal S64 .f32) (x10 : FVec Ideal S64x64 .f32) (x11 : FVec Ideal S64 .f32)
  (x12 : FVec Ideal S64x64 .f32) (x13 : FVec Ideal S64 .f32) (x14 : FVec Ideal S64x1 .f32)
  (x15 : FVec Ideal S64x64 .f32) (x16 : FVec Ideal S64 .f32) (x17 : FVec Ideal S64x1 .f32) (x18 : FVec Ideal S1 .f32)
  (hR : GmnSpec.InRange x2 x3)

include hR

local notation "I" => GmnSpec.mkInputs x0 x1 x2 x3 x4 x5 x6 x7 x8 x9 x10 x11 x12 x13 x14 x15 x16 x17 x18

theorem ref_ef (hrad : ∀ (e : Fin 800000) (i : Fin 16), val_main_v21 (F := Ideal) x1 x2 x3 (ix2 e i) = radial I e i)
    (e : Fin 800000) (j : Fin 64) :
    val_main_v46 (F := Ideal) x0 x1 x2 x3 x4 x5 x6 x7 (ix2 e j) = ef I e j := by
  have hin : ∀ k, val_main_v36 (F := Ideal) x0 x1 x2 x3 (ix2 e k) = ein I e k := fun k => by
    unfold val_main_v36 ein
    rw [einConcat_apply]
    split
    · exact ref_feat x0 x2 e _ (hR e).1.1
    split
    · exact ref_feat x0 x3 e _ (hR e).2.1
    · exact hrad e _
  have hl : ∀ k, val_main_v41 (F := Ideal) x0 x1 x2 x3 x4 x5 (ix2 e k) = h1 I e k := fun k =>
    (layer_apply rfl _ x4 x5 e k).trans (by simp only [hin]; rfl)
  exact (layer_apply rfl _ x6 x7 e j).trans (by simp only [hl]; rfl)

theorem ref_trans (hcd : ∀ (e : Fin 800000) (a : Fin 4) (t : Fin 3),
      val_main_v14 (F := Ideal) x1 x2 x3 (ix3 e a t) = cdiff I e a t)
    (hef : ∀ (e : Fin 800000) (j : Fin 64),
      val_main_v46 (F := Ideal) x0 x1 x2 x3 x4 x5 x6 x7 (ix2 e j) = ef I e j)
    (e : Fin 800000) (a : Fin 4) (t : Fin 3) :
    val_main_v55 (F := Ideal) x0 x1 x2 x3 x4 x5 x6 x7 x12 x13 x14 (ix3 e a t) = trans I e a t := by
  have hh : ∀ k, val_main_v51 (F := Ideal) x0 x1 x2 x3 x4 x5 x6 x7 x12 x13 (ix2 e k) = hcv I e k := fun k =>
    (layer_apply rfl _ x12 x13 e k).trans (by simp only [hef]; rfl)
  have hp : val_main_v52 (F := Ideal) x0 x1 x2 x3 x4 x5 x6 x7 x12 x13 x14 (ix2 e 0) = phi I e :=
    (RowDims.dotGeneral_plain_apply none _ _ x14 e 0).trans (by simp only [hh]; rfl)
  rw [val_main_v55_apply, val_main_v54_apply, val_main_v53_apply,
    show idx_main_v53 (idx_main_v54 (ix3 e a t)) = ix2 e 0 from eq_ix2 _, hcd, hp]
  rfl

end Stages

end Cert.ReferenceIdeal.Hand

end
-- ==== Proof.RefValueB.lean ====
import proofs.«412281_j28432683499987_4_alg».proof.Proof.Gen.ReferenceIdeal.Read
import proofs.«412281_j28432683499987_4_alg».proof.Proof.Spec
import proofs.«412281_j28432683499987_4_alg».proof.Proof.LibRowDims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.Hand

open Idealize.ShloMosaic Idealize.ShloMosaic.ValueIdx Cert.ReferenceIdeal Cert.ReferenceIdeal.Gen Cert.ReferenceIdeal.Read GmnSpec

namespace RefB

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Finset.sum_product', ← Finset.sum_product']
  exact Fintype.sum_equiv ⟨fun i => ((i 0, i 1), i 2), fun p => ix3 p.1.1 p.1.2 p.2, fun i => (eq_ix3 i).symm, fun _ => rfl⟩
    _ _ fun i => congrArg f (eq_ix3 i)

/-- An update lands on the entry each of whose coordinates is the window's start plus the window coordinate. -/
theorem resultIdx?_eq_some_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  split
  · rename_i h
    rw [Option.some.injEq, funext_iff]
    exact forall_congr' fun a => Fin.ext_iff.trans (by have := h a; show Int.toNat _ = _ ↔ _; omega)
  · rename_i h
    refine iff_of_false (by simp) fun hi => h fun a => ?_
    have := hi a; have := (i a).isLt; omega

/-- The accumulated count at `n`: the table's entry plus the updates whose start index, read signed, is `n`. -/
theorem cntScatterAdd_apply {w : Nat} (x : FVec Ideal S50000 .f32) (idx : IVec S800000x1 w) (upd : FVec Ideal S800000 .f32)
    (n : Fin 50000) :
    Host.scatterAdd scatter_S50000_S800000x1_S800000_n_0_0_1 x idx upd (ix1 n)
      = x (ix1 n) + ∑ r : Fin 800000, if (idx (ix2 r 0)).toInt = (n.val : Int) then upd (ix1 r) else 0 := by
  simp only [Host.scatterAdd, Ideal.hostScatterAdd_def, Ideal.hostScatterAdd]
  rw [Finset.sum_filter]
  refine congrArg _ (Fintype.sum_equiv (⟨fun i => i 0, ix1, fun i => (eq_ix1 i).symm, fun _ => rfl⟩ : S800000.Idx ≃ Fin 800000)
    _ _ fun i => ?_)
  obtain ⟨r, rfl⟩ : ∃ r, i = ix1 r := ⟨_, eq_ix1 i⟩
  refine if_congr ((resultIdx?_eq_some_iff _ _ _ _).trans (Fin.forall_fin_one.trans ?_)) rfl rfl
  show _ = _ ↔ (idx (ix2 r 0)).toInt = (n.val : Int)
  have hs : scatter_S50000_S800000x1_S800000_n_0_0_1.start (ix1 r) idx 0 = (idx (ix2 r 0)).toInt :=
    congrArg (fun i => (idx i).toInt) (eq_ix2 _)
  have hw : scatter_S50000_S800000x1_S800000_n_0_0_1.window (ix1 r) 0 = 0 := rfl
  have hn : ((ix1 n : S50000.Idx) 0).val = n.val := rfl
  omega

/-- The accumulated table at `(n, a, t)`: the table's entry plus the updates `(r, a, t)` whose start index is `n`. -/
theorem slabScatterAdd_apply {w : Nat} (x : FVec Ideal S50000x4x3 .f32) (idx : IVec S800000x1 w)
    (upd : FVec Ideal S800000x4x3 .f32) (n : Fin 50000) (a : Fin 4) (t : Fin 3) :
    Host.scatterAdd scatter_S50000x4x3_S800000x1_S800000x4x3_12_0_0_1 x idx upd (ix3 n a t)
      = x (ix3 n a t) + ∑ r : Fin 800000, if (idx (ix2 r 0)).toInt = (n.val : Int) then upd (ix3 r a t) else 0 := by
  simp only [Host.scatterAdd, Ideal.hostScatterAdd_def, Ideal.hostScatterAdd]
  rw [Finset.sum_filter, sum_idx3]
  refine congrArg _ (Finset.sum_congr rfl fun r _ => ?_)
  have key : ∀ a' t', scatter_S50000x4x3_S800000x1_S800000x4x3_12_0_0_1.resultIdx? (ix3 r a' t') idx = some (ix3 n a t)
      ↔ (idx (ix2 r 0)).toInt = (n.val : Int) ∧ a' = a ∧ t' = t := fun a' t' => by
    have hs : scatter_S50000x4x3_S800000x1_S800000x4x3_12_0_0_1.start (ix3 r a' t') idx 0 = (idx (ix2 r 0)).toInt :=
      congrArg (fun i => (idx i).toInt) (eq_ix2 _)
    rw [resultIdx?_eq_some_iff, Fin.forall_fin_succ, Fin.forall_fin_succ, Fin.forall_fin_one, Fin.ext_iff, Fin.ext_iff]
    show _ + ((0 : Nat) : Int) = (n.val : Int) ∧ (0 : Int) + (a'.val : Nat) = (a.val : Int)
      ∧ (0 : Int) + (t'.val : Nat) = (t.val : Int) ↔ _
    omega
  simp only [key]
  rw [Finset.sum_eq_single a (fun b _ hb => Finset.sum_eq_zero fun c _ => if_neg fun h => hb h.2.1)
      (fun h => absurd (Finset.mem_univ a) h),
    Finset.sum_eq_single t (fun c _ hc => if_neg fun h => hc h.2.2) (fun h => absurd (Finset.mem_univ t) h)]
  exact if_congr (and_iff_left ⟨rfl, rfl⟩) rfl rfl

/-- In range, an index word read signed is node `n` exactly when its clamp is. -/
theorem toInt_eq_iff_nodeOf {v : BitVec 32} (h : 0 ≤ v.toInt ∧ v.toInt < 50000) (n : Fin 50000) :
    v.toInt = (n.val : Int) ↔ nodeOf v = n := by
  have hv := nodeOf_val h.1 h.2
  rw [Fin.ext_iff]; omega

/-- The number of edges whose end `x` names node `n`, floored at one. -/
theorem cnt_apply (x : IVec S800000 32) (hx : ∀ e, 0 ≤ (x (ix1 e)).toInt ∧ (x (ix1 e)).toInt < 50000) (n : Fin 50000) :
    val_main_v64 (F := Ideal) x (ix1 n) = max (∑ e : Fin 800000, if nodeOf (x (ix1 e)) = n then oneE else 0) oneE := by
  have hs : val_main_v62 (F := Ideal) x (ix1 n) = ∑ e : Fin 800000, if nodeOf (x (ix1 e)) = n then oneE else 0 := by
    unfold val_main_v62
    rw [cntScatterAdd_apply, val_main_v60_apply, val_main_cst_9_apply, Ideal.ofBits_def, Ideal.ofBits_zero_f32, zero_add]
    refine Finset.sum_congr rfl fun e _ => ?_
    rw [val_main_v61_apply, val_main_v59_apply, val_main_cst_8_apply, Ideal.ofBits_def,
      show idx_main_v61 (ix2 e 0) = ix1 e from eq_ix1 _]
    exact if_congr (toInt_eq_iff_nodeOf (hx e) n) rfl rfl
  rw [val_main_v64_apply, hs, val_main_v63_apply, val_main_cst_10_apply, Ideal.ofBits_def, Ideal.maximumf_def]

end RefB

section Stages

open RefB

variable (x0 : FVec Ideal S50000x64 .f32) (x1 : FVec Ideal S50000x4x3 .f32) (x2 x3 : IVec S800000 32)
  (x4 : FVec Ideal S144x64 .f32) (x5 : FVec Ideal S64 .f32) (x6 : FVec Ideal S64x64 .f32) (x7 : FVec Ideal S64 .f32)
  (x8 : FVec Ideal S192x64 .f32) (x9 : FVec Ideal S64 .f32) (x10 : FVec Ideal S64x64 .f32) (x11 : FVec Ideal S64 .f32)
  (x12 : FVec Ideal S64x64 .f32) (x13 : FVec Ideal S64 .f32) (x14 : FVec Ideal S64x1 .f32)
  (x15 : FVec Ideal S64x64 .f32) (x16 : FVec Ideal S64 .f32) (x17 : FVec Ideal S64x1 .f32) (x18 : FVec Ideal S1 .f32)
  (hR : GmnSpec.InRange x2 x3)

include hR

local notation "I" => GmnSpec.mkInputs x0 x1 x2 x3 x4 x5 x6 x7 x8 x9 x10 x11 x12 x13 x14 x15 x16 x17 x18

theorem ref_cntCol (n : Fin 50000) : val_main_v76 (F := Ideal) x3 (ix1 n) = cntCol I n :=
  cnt_apply x3 (fun e => (hR e).2) n

theorem ref_f
    (htr : ∀ (e : Fin 800000) (a : Fin 4) (t : Fin 3),
      val_main_v55 (F := Ideal) x0 x1 x2 x3 x4 x5 x6 x7 x12 x13 x14 (ix3 e a t) = trans I e a t)
    (n : Fin 50000) (a : Fin 4) (t : Fin 3) :
    val_main_v67 (F := Ideal) x0 x1 x2 x3 x4 x5 x6 x7 x12 x13 x14 (ix3 n a t) = f I n a t := by
  have hs : val_main_v58 (F := Ideal) x0 x1 x2 x3 x4 x5 x6 x7 x12 x13 x14 (ix3 n a t) = seg I n a t := by
    unfold val_main_v58 seg
    rw [slabScatterAdd_apply, val_main_v56_apply, val_main_cst_7_apply, Ideal.ofBits_def, Ideal.ofBits_zero_f32, zero_add]
    refine Finset.sum_congr rfl fun e _ => ?_
    rw [val_main_v57_apply, htr, show idx_main_v57 (ix2 e 0) = ix1 e from eq_ix1 _]
    exact if_congr (toInt_eq_iff_nodeOf (hR e).1 n) rfl rfl
  rw [val_main_v67_apply, hs, val_main_v66_apply, val_main_v65_apply,
    show idx_main_v65 (idx_main_v66 (ix3 n a t)) = ix1 n from eq_ix1 _, cnt_apply x2 (fun e => (hR e).1) n]
  rfl

theorem ref_Znew
    (htr : ∀ (e : Fin 800000) (a : Fin 4) (t : Fin 3),
      val_main_v55 (F := Ideal) x0 x1 x2 x3 x4 x5 x6 x7 x12 x13 x14 (ix3 e a t) = trans I e a t)
    (n : Fin 50000) (a : Fin 4) (t : Fin 3) :
    val_main_v68 (F := Ideal) x0 x1 x2 x3 x4 x5 x6 x7 x12 x13 x14 (ix3 n a t) = Znew I n a t := by
  rw [val_main_v68_apply, ref_f x0 x1 x2 x3 x4 x5 x6 x7 x8 x9 x10 x11 x12 x13 x14 x15 x16 x17 x18 hR htr n a t]
  rfl

end Stages

end Cert.ReferenceIdeal.Hand

end
-- ==== Proof.RefValueC.lean ====
import proofs.«412281_j28432683499987_4_alg».proof.Proof.Gen.ReferenceIdeal.Read
import proofs.«412281_j28432683499987_4_alg».proof.Proof.Spec
import proofs.«412281_j28432683499987_4_alg».proof.Proof.LibRowDims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.Hand

open Idealize.ShloMosaic Idealize.ShloMosaic.ValueIdx Cert.ReferenceIdeal Cert.ReferenceIdeal.Read GmnSpec

namespace RefC

/-- Rows added into a zero table at in-range node words: entry (n, j) sums the rows whose word names n. -/
theorem seg_sum (z : FVec Ideal S50000x64 .f32) (hz : ∀ i, z i = 0) (w : IVec S800000x1 32) (a : IVec S800000 32)
    (hw : ∀ e, w (ix2 e 0) = a (ix1 e)) (ha : ∀ e, 0 ≤ (a (ix1 e)).toInt ∧ (a (ix1 e)).toInt < 50000)
    (u : FVec Ideal S800000x64 .f32) (g : Fin 800000 → Fin 64 → EReal) (hu : ∀ e j, u (ix2 e j) = g e j)
    (n : Fin 50000) (j : Fin 64) :
    Host.scatterAdd (F := Ideal) scatter_S50000x64_S800000x1_S800000x64_1_0_0_1 z w u (ix2 n j)
      = ∑ e, if nodeOf (a (ix1 e)) = n then g e j else 0 := by
  refine (RowDims.rowScatterAdd_apply (N := 50000) (C := 64) (R := 800000) _ z w u n j).trans ?_
  rw [hz, zero_add]
  refine Finset.sum_congr rfl fun e _ => ?_
  have hv := nodeOf_val (ha e).1 (ha e).2
  rw [hw, hu]
  exact if_congr ⟨fun h => Fin.ext (by omega), fun h => h ▸ hv.symm⟩ rfl rfl

end RefC

open RefC

section Stages

variable {x0 : FVec Ideal S50000x64 .f32} {x1 : FVec Ideal S50000x4x3 .f32} {x2 x3 : IVec S800000 32}
  {x4 : FVec Ideal S144x64 .f32} {x5 : FVec Ideal S64 .f32} {x6 : FVec Ideal S64x64 .f32} {x7 : FVec Ideal S64 .f32}
  {x8 : FVec Ideal S192x64 .f32} {x9 : FVec Ideal S64 .f32} {x10 : FVec Ideal S64x64 .f32} {x11 : FVec Ideal S64 .f32}
  {x12 : FVec Ideal S64x64 .f32} {x13 : FVec Ideal S64 .f32} {x14 : FVec Ideal S64x1 .f32}
  {x15 : FVec Ideal S64x64 .f32} {x16 : FVec Ideal S64 .f32} {x17 : FVec Ideal S64x1 .f32} {x18 : FVec Ideal S1 .f32}
  (hR : GmnSpec.InRange x2 x3)
  (hef : ∀ (e : Fin 800000) (j : Fin 64),
    val_main_v46 (F := Ideal) x0 x1 x2 x3 x4 x5 x6 x7 (ix2 e j) = ef (GmnSpec.mkInputs x0 x1 x2 x3 x4 x5 x6 x7 x8 x9 x10 x11 x12 x13 x14 x15 x16 x17 x18) e j)
  (hcnt : ∀ n : Fin 50000, val_main_v76 (F := Ideal) x3 (ix1 n) = cntCol (GmnSpec.mkInputs x0 x1 x2 x3 x4 x5 x6 x7 x8 x9 x10 x11 x12 x13 x14 x15 x16 x17 x18) n)

include hR hef

local notation "I" => GmnSpec.mkInputs x0 x1 x2 x3 x4 x5 x6 x7 x8 x9 x10 x11 x12 x13 x14 x15 x16 x17 x18

theorem RefC.ref_agg (n : Fin 50000) (j : Fin 64) :
    val_main_v71 (F := Ideal) x0 x1 x2 x3 x4 x5 x6 x7 (ix2 n j) = agg I n j :=
  seg_sum _ (fun _ => Ideal.ofBits_zero_f32) _ x2
    (fun e => (val_main_v70_apply x2 _).trans (congrArg x2 (eq_ix1 _))) (fun e => (hR e).1) _ _ hef n j

include hcnt

theorem RefC.ref_others (n : Fin 50000) (j : Fin 64) :
    val_main_v82 (F := Ideal) x0 x1 x2 x3 x4 x5 x6 x7 (ix2 n j) = others I n j := by
  rw [val_main_v82_apply, val_main_v81_apply, val_main_v80_apply,
    show idx_main_v80 (idx_main_v81 (ix2 n j)) = ix1 n from eq_ix1 _, hcnt]
  exact congrArg₂ Ideal.div (seg_sum _ (fun _ => Ideal.ofBits_zero_f32) _ x3
    (fun e => (val_main_v78_apply x3 _).trans (congrArg x3 (eq_ix1 _))) (fun e => (hR e).2) _ _ hef n j) rfl

/-- Column k of the joined row lies in piece k / 64, at column k % 64 of it. -/
theorem RefC.ref_nin (n : Fin 50000) (k : Fin 192) :
    val_main_v83 (F := Ideal) x0 x1 x2 x3 x4 x5 x6 x7 (ix2 n k) = nin I n k := by
  have P := fun p hp w hw pre hpre (c : Fin 64) => concatenate_apply_piece (t := S50000x192) 1
    [⟨S50000x64, val_main_v82 (F := Ideal) x0 x1 x2 x3 x4 x5 x6 x7⟩, ⟨S50000x64, x0⟩,
      ⟨S50000x64, val_main_v71 (F := Ideal) x0 x1 x2 x3 x4 x5 x6 x7⟩]
    Gen.concatenates_S50000x64_S50000x64_S50000x64_S50000x192_d1 (ix2 n k) p hp S50000x64 w hw rfl pre hpre (ix2 n c)
    fun b hb => by
      match b with
      | ⟨0, _⟩ => rfl
      | ⟨1, _⟩ => exact absurd (Fin.ext rfl) hb
  have hk := k.isLt
  unfold val_main_v83 nin
  by_cases h1 : k.val < 64
  · rw [dif_pos h1, P 0 (Nat.zero_lt_succ _) _ rfl 0 rfl ⟨k, h1⟩ (Nat.zero_add _)]
    exact RefC.ref_others hR hef hcnt n _
  · rw [dif_neg h1]
    by_cases h2 : k.val < 128
    · rw [dif_pos h2]
      exact P 1 (Nat.one_lt_succ_succ _) _ rfl 64 rfl ⟨k - 64, by omega⟩ (by show 64 + (k.val - 64) = k.val; omega)
    · rw [dif_neg h2, P 2 (Nat.lt_succ_self _) _ rfl 128 rfl ⟨k - 128, by omega⟩
        (by show 128 + (k.val - 128) = k.val; omega)]
      exact RefC.ref_agg hR hef n _

theorem RefC.ref_hn1 (n : Fin 50000) (j : Fin 64) :
    val_main_v88 (F := Ideal) x0 x1 x2 x3 x4 x5 x6 x7 x8 x9 (ix2 n j) = hn1 I n j := by
  rw [val_main_v88_apply, val_main_v87_apply, val_main_v84_apply, val_main_v86_apply, val_main_v85_apply]
  refine congrArg₂ max (congrArg₂ (· + ·) (Finset.sum_congr rfl fun k _ => ?_) (congrArg x9 (eq_ix1 _)))
    Ideal.ofBits_zero_f32
  rw [show lidx_main_v84 (ix2 n j) k = ix2 n k from eq_ix2 _, RefC.ref_nin hR hef hcnt]
  exact congrArg (_ * x8 ·) (eq_ix2 _)

variable (x0 x1 x2 x3 x4 x5 x6 x7 x8 x9 x10 x11 x12 x13 x14 x15 x16 x17 x18)

theorem ref_hnew (n : Fin 50000) (j : Fin 64) :
    val_main_v93 (F := Ideal) x0 x1 x2 x3 x4 x5 x6 x7 x8 x9 x10 x11 (ix2 n j) = hnew I n j := by
  rw [val_main_v93_apply, val_main_v92_apply, val_main_v89_apply, val_main_v91_apply, val_main_v90_apply]
  refine congrArg₂ (· + ·) rfl (congrArg₂ (· + ·) (Finset.sum_congr rfl fun k _ => ?_) (congrArg x11 (eq_ix1 _)))
  rw [show lidx_main_v89 (ix2 n j) k = ix2 n k from eq_ix2 _, RefC.ref_hn1 hR hef hcnt]
  exact congrArg (_ * x10 ·) (eq_ix2 _)

end Stages

end Cert.ReferenceIdeal.Hand

end
-- ==== Proof.RefValueD.lean ====
import proofs.«412281_j28432683499987_4_alg».proof.Proof.Gen.ReferenceIdeal.Read
import proofs.«412281_j28432683499987_4_alg».proof.Proof.Spec
import proofs.«412281_j28432683499987_4_alg».proof.Proof.LibRowDims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.Hand

open Idealize.ShloMosaic Idealize.ShloMosaic.ValueIdx Cert.ReferenceIdeal Cert.ReferenceIdeal.Read GmnSpec

/-- An index of the coordinates whose entries are those of (n, a, t), the outer ones through the row-major position 3 n + t. -/
theorem RefD.ix3_of {i : S50000x4x3.Idx} {n : Fin 50000} {a : Fin 4} {t : Fin 3}
    (h0 : (i 0).val = (n.val * 3 + t.val) / 3) (h1 : (i 1).val = a.val) (h2 : (i 2).val = (n.val * 3 + t.val) % 3) :
    i = ix3 n a t :=
  funext fun d => Fin.ext (by
    have ht := t.isLt
    match d with
    | ⟨0, _⟩ => show (i 0).val = n.val; omega
    | ⟨1, _⟩ => exact h1
    | ⟨2, _⟩ => show (i 2).val = t.val; omega)

section Stages

variable {x0 : FVec Ideal S50000x64 .f32} {x1 : FVec Ideal S50000x4x3 .f32} {x2 x3 : IVec S800000 32}
  {x4 : FVec Ideal S144x64 .f32} {x5 : FVec Ideal S64 .f32} {x6 : FVec Ideal S64x64 .f32} {x7 : FVec Ideal S64 .f32}
  {x8 : FVec Ideal S192x64 .f32} {x9 : FVec Ideal S64 .f32} {x10 : FVec Ideal S64x64 .f32} {x11 : FVec Ideal S64 .f32}
  {x12 : FVec Ideal S64x64 .f32} {x13 : FVec Ideal S64 .f32} {x14 : FVec Ideal S64x1 .f32}
  {x15 : FVec Ideal S64x64 .f32} {x16 : FVec Ideal S64 .f32} {x17 : FVec Ideal S64x1 .f32} {x18 : FVec Ideal S1 .f32}

variable (hR : GmnSpec.InRange x2 x3)
  (hh : ∀ (n : Fin 50000) (j : Fin 64),
    val_main_v93 (F := Ideal) x0 x1 x2 x3 x4 x5 x6 x7 x8 x9 x10 x11 (ix2 n j) = hnew (GmnSpec.mkInputs x0 x1 x2 x3 x4 x5 x6 x7 x8 x9 x10 x11 x12 x13 x14 x15 x16 x17 x18) n j)

include hh

local notation "I" => GmnSpec.mkInputs x0 x1 x2 x3 x4 x5 x6 x7 x8 x9 x10 x11 x12 x13 x14 x15 x16 x17 x18

theorem RefD.ref_hv (n : Fin 50000) (j : Fin 64) :
    val_main_v98 (F := Ideal) x0 x1 x2 x3 x4 x5 x6 x7 x8 x9 x10 x11 x15 x16 (ix2 n j) = hv I n j := by
  rw [val_main_v98_apply, val_main_v97_apply, val_main_v94_apply, val_main_v96_apply, val_main_v95_apply]
  refine congrArg₂ max (congrArg₂ (· + ·) (Finset.sum_congr rfl fun k _ => ?_) (congrArg x16 (eq_ix1 _)))
    Ideal.ofBits_zero_f32
  rw [show lidx_main_v94 (ix2 n j) k = ix2 n k from eq_ix2 _, show ridx_main_v94 (ix2 n j) k = ix2 k j from eq_ix2 _, hh]
  rfl

theorem RefD.ref_scale (n : Fin 50000) :
    val_main_v102 (F := Ideal) x0 x1 x2 x3 x4 x5 x6 x7 x8 x9 x10 x11 x15 x16 x17 x18 (ix2 n 0) = scale I n := by
  rw [val_main_v102_apply, val_main_v99_apply, val_main_v101_apply, val_main_v100_apply]
  refine congrArg₂ (· + ·) (Finset.sum_congr rfl fun k _ => ?_) (congrArg x18 (eq_ix1 _))
  rw [show lidx_main_v99 (ix2 n 0) k = ix2 n k from eq_ix2 _, show ridx_main_v99 (ix2 n 0) k = ix2 k 0 from eq_ix2 _,
    RefD.ref_hv hh]
  rfl

variable (x0 x1 x2 x3 x4 x5 x6 x7 x8 x9 x10 x11 x12 x13 x14 x15 x16 x17 x18)

variable (hf : ∀ (n : Fin 50000) (a : Fin 4) (t : Fin 3),
    val_main_v67 (F := Ideal) x0 x1 x2 x3 x4 x5 x6 x7 x12 x13 x14 (ix3 n a t) = f (GmnSpec.mkInputs x0 x1 x2 x3 x4 x5 x6 x7 x8 x9 x10 x11 x12 x13 x14 x15 x16 x17 x18) n a t)

include hR hf

theorem ref_vnew (n : Fin 50000) (t : Fin 3) :
    val_main_v109 (F := Ideal) x0 x1 x2 x3 x4 x5 x6 x7 x8 x9 x10 x11 x12 x13 x14 x15 x16 x17 x18 (ix2 n t) = vnew I n t := by
  rw [val_main_v109_apply, val_main_v106_apply, val_main_v105_apply, val_main_v104_apply, val_main_v103_apply,
    val_main_v108_apply, val_main_v107_apply, show idx_main_v105 (ix2 n t) = ix2 n 0 from eq_ix2 _,
    (RefD.ix3_of rfl rfl rfl : idx_main_v103 (idx_main_v104 (ix2 n t)) = ix3 n 1 t),
    (RefD.ix3_of rfl rfl rfl : idx_main_v107 (idx_main_v108 (ix2 n t)) = ix3 n 0 t), RefD.ref_scale hh, hf]
  rfl

theorem ref_xnew (n : Fin 50000) (t : Fin 3) :
    val_main_v112 (F := Ideal) x0 x1 x2 x3 x4 x5 x6 x7 x8 x9 x10 x11 x12 x13 x14 x15 x16 x17 x18 (ix2 n t) = xnew I n t := by
  rw [val_main_v112_apply, val_main_v111_apply, val_main_v110_apply,
    (RefD.ix3_of rfl rfl rfl : idx_main_v110 (idx_main_v111 (ix2 n t)) = ix3 n 0 t),
    ref_vnew x0 x1 x2 x3 x4 x5 x6 x7 x8 x9 x10 x11 x12 x13 x14 x15 x16 x17 x18 hR hh hf]
  rfl

end Stages

end Cert.ReferenceIdeal.Hand

end
-- ==== Proof.RefAll.lean ====
import proofs.«412281_j28432683499987_4_alg».proof.Proof.RefValueA
import proofs.«412281_j28432683499987_4_alg».proof.Proof.RefValueA2
import proofs.«412281_j28432683499987_4_alg».proof.Proof.RefValueB
import proofs.«412281_j28432683499987_4_alg».proof.Proof.RefValueC
import proofs.«412281_j28432683499987_4_alg».proof.Proof.RefValueD

noncomputable section

open scoped BigOperators

namespace Cert.ReferenceIdeal.Hand

open Idealize.ShloMosaic Idealize.ShloMosaic.ValueIdx Cert.ReferenceIdeal Cert.ReferenceIdeal.Read GmnSpec

section Results

variable {x0 : FVec Ideal S50000x64 .f32} {x1 : FVec Ideal S50000x4x3 .f32} {x2 x3 : IVec S800000 32}
  {x4 : FVec Ideal S144x64 .f32} {x5 : FVec Ideal S64 .f32} {x6 : FVec Ideal S64x64 .f32} {x7 : FVec Ideal S64 .f32}
  {x8 : FVec Ideal S192x64 .f32} {x9 : FVec Ideal S64 .f32} {x10 : FVec Ideal S64x64 .f32} {x11 : FVec Ideal S64 .f32}
  {x12 : FVec Ideal S64x64 .f32} {x13 : FVec Ideal S64 .f32} {x14 : FVec Ideal S64x1 .f32}
  {x15 : FVec Ideal S64x64 .f32} {x16 : FVec Ideal S64 .f32} {x17 : FVec Ideal S64x1 .f32} {x18 : FVec Ideal S1 .f32}
  (hR : GmnSpec.InRange x2 x3)

include hR

local notation "I" => GmnSpec.mkInputs x0 x1 x2 x3 x4 x5 x6 x7 x8 x9 x10 x11 x12 x13 x14 x15 x16 x17 x18

theorem ref_all_ef (e : Fin 800000) (j : Fin 64) :
    val_main_v46 (F := Ideal) x0 x1 x2 x3 x4 x5 x6 x7 (ix2 e j) = ef I e j :=
  ref_ef x0 x1 x2 x3 x4 x5 x6 x7 x8 x9 x10 x11 x12 x13 x14 x15 x16 x17 x18 hR (ref_radial x0 x1 x2 x3 x4 x5 x6 x7 x8 x9 x10 x11 x12 x13 x14 x15 x16 x17 x18 hR) e j

theorem ref_all_trans (e : Fin 800000) (a : Fin 4) (t : Fin 3) :
    val_main_v55 (F := Ideal) x0 x1 x2 x3 x4 x5 x6 x7 x12 x13 x14 (ix3 e a t) = trans I e a t :=
  ref_trans x0 x1 x2 x3 x4 x5 x6 x7 x8 x9 x10 x11 x12 x13 x14 x15 x16 x17 x18 hR (ref_cdiff x0 x1 x2 x3 x4 x5 x6 x7 x8 x9 x10 x11 x12 x13 x14 x15 x16 x17 x18 hR) (ref_all_ef hR) e a t

theorem ref_all_f (n : Fin 50000) (a : Fin 4) (t : Fin 3) :
    val_main_v67 (F := Ideal) x0 x1 x2 x3 x4 x5 x6 x7 x12 x13 x14 (ix3 n a t) = f I n a t :=
  ref_f x0 x1 x2 x3 x4 x5 x6 x7 x8 x9 x10 x11 x12 x13 x14 x15 x16 x17 x18 hR (ref_all_trans hR) n a t

variable (x0 x1 x2 x3 x4 x5 x6 x7 x8 x9 x10 x11 x12 x13 x14 x15 x16 x17 x18)

theorem ref_out_Z (n : Fin 50000) (a : Fin 4) (t : Fin 3) :
    val_main_v68 (F := Ideal) x0 x1 x2 x3 x4 x5 x6 x7 x12 x13 x14 (ix3 n a t) = Znew I n a t :=
  ref_Znew x0 x1 x2 x3 x4 x5 x6 x7 x8 x9 x10 x11 x12 x13 x14 x15 x16 x17 x18 hR (ref_all_trans hR) n a t

theorem ref_out_h (n : Fin 50000) (j : Fin 64) :
    val_main_v93 (F := Ideal) x0 x1 x2 x3 x4 x5 x6 x7 x8 x9 x10 x11 (ix2 n j) = hnew I n j :=
  ref_hnew x0 x1 x2 x3 x4 x5 x6 x7 x8 x9 x10 x11 x12 x13 x14 x15 x16 x17 x18 hR (ref_all_ef hR) (ref_cntCol x0 x1 x2 x3 x4 x5 x6 x7 x8 x9 x10 x11 x12 x13 x14 x15 x16 x17 x18 hR) n j

theorem ref_out_v (n : Fin 50000) (t : Fin 3) :
    val_main_v109 (F := Ideal) x0 x1 x2 x3 x4 x5 x6 x7 x8 x9 x10 x11 x12 x13 x14 x15 x16 x17 x18 (ix2 n t) = vnew I n t :=
  ref_vnew x0 x1 x2 x3 x4 x5 x6 x7 x8 x9 x10 x11 x12 x13 x14 x15 x16 x17 x18 hR (ref_out_h x0 x1 x2 x3 x4 x5 x6 x7 x8 x9 x10 x11 x12 x13 x14 x15 x16 x17 x18 hR) (ref_all_f hR) n t

theorem ref_out_x (n : Fin 50000) (t : Fin 3) :
    val_main_v112 (F := Ideal) x0 x1 x2 x3 x4 x5 x6 x7 x8 x9 x10 x11 x12 x13 x14 x15 x16 x17 x18 (ix2 n t) = xnew I n t :=
  ref_xnew x0 x1 x2 x3 x4 x5 x6 x7 x8 x9 x10 x11 x12 x13 x14 x15 x16 x17 x18 hR (ref_out_h x0 x1 x2 x3 x4 x5 x6 x7 x8 x9 x10 x11 x12 x13 x14 x15 x16 x17 x18 hR) (ref_all_f hR) n t

end Results

end Cert.ReferenceIdeal.Hand

end
-- ==== Proof.lean ====
import proofs.«412281_j28432683499987_4_alg».proof.Defs
import proofs.«412281_j28432683499987_4_alg».proof.Proof.Gen.Kernel
import proofs.«412281_j28432683499987_4_alg».proof.Proof.Gen.KernelIdeal
import proofs.«412281_j28432683499987_4_alg».proof.Proof.Gen.ReferenceIdeal
import proofs.«412281_j28432683499987_4_alg».proof.Proof.Gen.Pre_finite_inputs
import proofs.«412281_j28432683499987_4_alg».proof.Proof.Gen.ReferenceIdeal.Run
import proofs.«412281_j28432683499987_4_alg».proof.Proof.Gen.ReferenceIdeal.Read
import proofs.«412281_j28432683499987_4_alg».proof.Proof.KFrame
import proofs.«412281_j28432683499987_4_alg».proof.Proof.KIFrame
import proofs.«412281_j28432683499987_4_alg».proof.Proof.KIValue
import proofs.«412281_j28432683499987_4_alg».proof.Proof.PreDecode
import proofs.«412281_j28432683499987_4_alg».proof.Proof.RefAll
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m g _ => Cert.Kernel.Hand.frame m g
theorem frame_ki : Cert.frame_KernelIdeal := fun m g _ => Cert.KernelIdeal.Hand.frame m g
theorem frame_ri : Cert.frame_ReferenceIdeal := fun m g _ =>
  (θ_run Cert.ReferenceIdeal.defs _ _).mono (fun _ h c => (h c).2.2.2.2) (Cert.ReferenceIdeal.Value.run (F := Ideal) m g)

open Cert.KernelIdeal.Hand in
/-- Both programs end with the layer's four results of the shared arguments: each side computes the same function of them. -/
theorem algebraic : Cert.algebraic_KernelIdeal_ReferenceIdeal := by
  intro m g m' g' hpre hagree
  refine ⟨fun c => W8 m c Cert.KernelIdeal.main_v34, fun c => W8 m c Cert.KernelIdeal.main_v38,
    fun c => W8 m c Cert.KernelIdeal.main_v36, fun c => W8 m c Cert.KernelIdeal.main_v37, run_results m g, ?_⟩
  refine (θ_run Cert.ReferenceIdeal.defs _ _).mono (fun _ h c => ?_) (Cert.ReferenceIdeal.Value.run (F := Ideal) m' g')
  have hR : GmnSpec.InRange (W0 m c Cert.KernelIdeal.main_arg2) (W0 m c Cert.KernelIdeal.main_arg3) :=
    Cert.Pre_finite_inputs.Hand.inRange_of_pre _ _ _ _ _ _ _ _ _ _ _ _ _ _ _ _ _ _ _ (hpre c)
  obtain ⟨e0, e1, e2, e3, e4, e5, e6, e7, e8, e9, e10, e11, e12, e13, e14, e15, e16, e17, e18⟩ := hagree c
  refine ⟨(h c).1.trans ?_, (h c).2.1.trans ?_, (h c).2.2.1.trans ?_, (h c).2.2.2.1.trans ?_, (h c).2.2.2.2⟩
  · rw [Cert.ReferenceIdeal.Read.val_main_v93_eq, e0, e1, e2, e3, e4, e5, e6, e7, e8, e9, e10, e11]
    funext i
    obtain ⟨n, j, rfl⟩ : ∃ (n : Fin 50000) (j : Fin 64), i = ix2 n j := ⟨i 0, i 1, eq_ix2 i⟩
    exact (Cert.ReferenceIdeal.Hand.ref_out_h _ _ _ _ _ _ _ _ _ _ _ _ _ _ _ _ _ _ _ hR n j).trans (out_h m c hR n j).symm
  · rw [Cert.ReferenceIdeal.Read.val_main_v68_eq, e0, e1, e2, e3, e4, e5, e6, e7, e12, e13, e14]
    funext i
    obtain ⟨n, a, t, rfl⟩ : ∃ (n : Fin 50000) (a : Fin 4) (t : Fin 3), i = ix3 n a t := ⟨i 0, i 1, i 2, eq_ix3 i⟩
    exact (Cert.ReferenceIdeal.Hand.ref_out_Z _ _ _ _ _ _ _ _ _ _ _ _ _ _ _ _ _ _ _ hR n a t).trans (out_Z m c hR n a t).symm
  · rw [Cert.ReferenceIdeal.Read.val_main_v112_eq, e0, e1, e2, e3, e4, e5, e6, e7, e8, e9, e10, e11, e12, e13, e14, e15, e16, e17, e18]
    funext i
    obtain ⟨n, t, rfl⟩ : ∃ (n : Fin 50000) (t : Fin 3), i = ix2 n t := ⟨i 0, i 1, eq_ix2 i⟩
    exact (Cert.ReferenceIdeal.Hand.ref_out_x _ _ _ _ _ _ _ _ _ _ _ _ _ _ _ _ _ _ _ hR n t).trans (out_x m c hR n t).symm
  · rw [Cert.ReferenceIdeal.Read.val_main_v109_eq, e0, e1, e2, e3, e4, e5, e6, e7, e8, e9, e10, e11, e12, e13, e14, e15, e16, e17, e18]
    funext i
    obtain ⟨n, t, rfl⟩ : ∃ (n : Fin 50000) (t : Fin 3), i = ix2 n t := ⟨i 0, i 1, eq_ix2 i⟩
    exact (Cert.ReferenceIdeal.Hand.ref_out_v _ _ _ _ _ _ _ _ _ _ _ _ _ _ _ _ _ _ _ hR n t).trans (out_v m c hR n t).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
